-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x40 .f32) (main_arg13 : FVec F S40 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x40 .f32 := Host.absf main_arg12
  let main_cst_22 : FVec F S_ .f32 := constant S_ .f32 0x7F800000#32
  let main_v60 : FVec F S128x40 .f32 := broadcastInDim S128x40 ![] bcast_S_S128x40 main_cst_22
  let main_v61 : IVec S128x40 1 := cmpf .olt main_v59 main_v60
  let main_c_23 : IVec S_ 1 := constantI S_ 1 1#1
  let main_v62 : IVec S_ 1 := (fun x v => Host.reduce IntOp.andi x v reducesTo_S128x40_S_d0_1 h_S_) main_v61 main_c_23
  let main_v63 : IVec S_ 1 := andi main_v58 main_v62
  let main_v64 : FVec F S40 .f32 := Host.absf main_arg13
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x40 .f32) (main_arg13 : FVec F S40 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x40 .f32) (main_arg13 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S400x10000 : Shape := ⟨2, ![400, 10000]⟩
abbrev S400x128 : Shape := ⟨2, ![400, 128]⟩
abbrev S1x40 : Shape := ⟨2, ![1, 40]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 27
  | .vmem => 48
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x40, .f32⟩
  | .hbm, ⟨13, _⟩ => ⟨S40, .f32⟩
  | .hbm, ⟨14, _⟩ => ⟨S10000x10000, .bf16⟩
  | .hbm, ⟨15, _⟩ => ⟨S1x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S1x40, .f32⟩
  | .hbm, ⟨26, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .bf16⟩
  | .local _ .vmem, ⟨4, _⟩ => ⟨S400x10000, .bf16⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | .local _ .vmem, ⟨8, _⟩ => ⟨S10000x128, .f32⟩
  | .local _ .vmem, ⟨9, _⟩ => ⟨S128x128, .f32⟩
  | .local _ .vmem, ⟨10, _⟩ => ⟨S1x128, .f32⟩
  | .local _ .vmem, ⟨11, _⟩ => ⟨S400x10000, .bf16⟩
  | .local _ .vmem, ⟨12, _⟩ => ⟨S400x10000, .bf16⟩
  | .local _ .vmem, ⟨13, _⟩ => ⟨S400x128, .f32⟩
  | .local _ .vmem, ⟨14, _⟩ => ⟨S400x128, .f32⟩
  | .local _ .vmem, ⟨15, _⟩ => ⟨S10000x128, .bf16⟩
  | .local _ .vmem, ⟨16, _⟩ => ⟨S10000x128, .f32⟩
  | .local _ .vmem, ⟨17, _⟩ => ⟨S128x128, .f32⟩
  | .local _ .vmem, ⟨18, _⟩ => ⟨S1x128, .f32⟩
  | .local _ .vmem, ⟨19, _⟩ => ⟨S400x10000, .bf16⟩
  | .local _ .vmem, ⟨20, _⟩ => ⟨S400x10000, .bf16⟩
  | .local _ .vmem, ⟨21, _⟩ => ⟨S400x128, .f32⟩
  | .local _ .vmem, ⟨22, _⟩ => ⟨S400x128, .f32⟩
  | .local _ .vmem, ⟨23, _⟩ => ⟨S10000x128, .bf16⟩
  | .local _ .vmem, ⟨24, _⟩ => ⟨S10000x128, .f32⟩
  | .local _ .vmem, ⟨25, _⟩ => ⟨S128x128, .f32⟩
  | .local _ .vmem, ⟨26, _⟩ => ⟨S1x128, .f32⟩
  | .local _ .vmem, ⟨27, _⟩ => ⟨S400x10000, .bf16⟩
  | .local _ .vmem, ⟨28, _⟩ => ⟨S400x10000, .bf16⟩
  | .local _ .vmem, ⟨29, _⟩ => ⟨S400x128, .f32⟩
  | .local _ .vmem, ⟨30, _⟩ => ⟨S400x128, .f32⟩
  | .local _ .vmem, ⟨31, _⟩ => ⟨S10000x128, .bf16⟩
  | .local _ .vmem, ⟨32, _⟩ => ⟨S10000x128, .f32⟩
  | .local _ .vmem, ⟨33, _⟩ => ⟨S128x128, .f32⟩
  | .local _ .vmem, ⟨34, _⟩ => ⟨S1x128, .f32⟩
  | .local _ .vmem, ⟨35, _⟩ => ⟨S400x10000, .bf16⟩
  | .local _ .vmem, ⟨36, _⟩ => ⟨S400x10000, .bf16⟩
  | .local _ .vmem, ⟨37, _⟩ => ⟨S400x128, .f32⟩
  | .local _ .vmem, ⟨38, _⟩ => ⟨S400x128, .f32⟩
  | .local _ .vmem, ⟨39, _⟩ => ⟨S10000x128, .bf16⟩
  | .local _ .vmem, ⟨40, _⟩ => ⟨S10000x128, .f32⟩
  | .local _ .vmem, ⟨41, _⟩ => ⟨S128x40, .f32⟩
  | .local _ .vmem, ⟨42, _⟩ => ⟨S1x40, .f32⟩
  | .local _ .vmem, ⟨43, _⟩ => ⟨S400x10000, .bf16⟩
  | .local _ .vmem, ⟨44, _⟩ => ⟨S400x10000, .bf16⟩
  | .local _ .vmem, ⟨45, _⟩ => ⟨S400x40, .f32⟩
  | .local _ .vmem, ⟨46, _⟩ => ⟨S400x40, .f32⟩
  | .local _ .vmem, ⟨47, _⟩ => ⟨S10000x40, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc5_stg4_0 : Ref sig .tc := ⟨.vmem, 45, rfl⟩
abbrev cc5_stg4_1 : Ref sig .tc := ⟨.vmem, 46, rfl⟩
abbrev cc5_scratch0 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem4_1 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem3_1 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x10000 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x10000 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S10000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x10000 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S400x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x10000 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S400x40 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S40_S1x40 : S40.ShapeCasts S1x40
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  packedbf16_S10000x40_S10000x40_0_0 : (Rect.unit (s := S10000x40) ![0, 0] S10000x40.size inb_S10000x40_S10000x40_0_0).PackedRows (EltTy.packing .bf16)
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  h_S400x40 : 0 < S400x40.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S10000x128_S128x40_S10000x40_1_0_0_1_n_n_wf : DotDims.WF S10000x128 S128x40 S10000x40 [1] [0] [0] [1] [] []
  dot_S400x10000_S10000x40_S400x40_1_0_0_1_n_n_wf : DotDims.WF S400x10000 S10000x40 S400x40 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .bf16 = 32 ∨ (Rect.block (s := S10000x10000) S400x10000.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .bf16 = 32 ∨ (Rect.block (s := S10000x10000) S400x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S10000x128.size a
  hwx2_0 : ∀ i : grid2.Coords, EltTy.bits .f32 = 32 ∨ (Rect.block (s := S10000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x10000.size a ≤ S10000x10000.size a
  hwx2_3 : ∀ i : grid2.Coords, EltTy.bits .bf16 = 32 ∨ (Rect.block (s := S10000x10000) S400x10000.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S10000x128.size a
  hwx3_0 : ∀ i : grid3.Coords, EltTy.bits .f32 = 32 ∨ (Rect.block (s := S10000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x10000.size a ≤ S10000x10000.size a
  hwx3_3 : ∀ i : grid3.Coords, EltTy.bits .bf16 = 32 ∨ (Rect.block (s := S10000x10000) S400x10000.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .f32 = 32 ∨ (Rect.block (s := S10000x128) S400x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S10000x128.size a
  hwx4_0 : ∀ i : grid4.Coords, EltTy.bits .f32 = 32 ∨ (Rect.block (s := S10000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x10000.size a ≤ S10000x10000.size a
  hwx4_3 : ∀ i : grid4.Coords, EltTy.bits .bf16 = 32 ∨ (Rect.block (s := S10000x10000) S400x10000.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x128.size a ≤ S10000x128.size a
  hwx4_4 : ∀ i : grid4.Coords, EltTy.bits .f32 = 32 ∨ (Rect.block (s := S10000x128) S400x128.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S10000x128.size a
  hwx5_0 : ∀ i : grid5.Coords, EltTy.bits .f32 = 32 ∨ (Rect.block (s := S10000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x40.size a ≤ S128x40.size a
  hwx5_1 : ∀ i : grid5.Coords, EltTy.bits .f32 = 32 ∨ (Rect.block (s := S128x40) S128x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x10000.size a ≤ S10000x10000.size a
  hwx5_3 : ∀ i : grid5.Coords, EltTy.bits .bf16 = 32 ∨ (Rect.block (s := S10000x10000) S400x10000.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x40.size a ≤ S10000x40.size a
  hwx5_4 : ∀ i : grid5.Coords, EltTy.bits .f32 = 32 ∨ (Rect.block (s := S10000x40) S400x40.size (cc5_transform_4 i) (hinb5_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4) S10000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x10000.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v6) S10000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S400x10000.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v8) S400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v8) S10000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v0) S400x10000.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v10) S400x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v10) S10000x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S128x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v0) S400x10000.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v12) S400x40.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x40, .f32⟩
  | .hbm, ⟨13, _⟩ => ⟨S40, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S10000x40, .f32⟩
  | .hbm, ⟨55, _⟩ => ⟨S10000x40, .f32⟩
  | .hbm, ⟨56, _⟩ => ⟨S1x40, .f32⟩
  | .hbm, ⟨57, _⟩ => ⟨S10000x40, .f32⟩
  | .hbm, ⟨58, _⟩ => ⟨S10000x40, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S10000, .f32⟩
  | .hbm, ⟨63, _⟩ => ⟨S10000, .f32⟩
  | .hbm, ⟨64, _⟩ => ⟨S10000x1, .f32⟩
  | .hbm, ⟨65, _⟩ => ⟨S10000x40, .f32⟩
  | .hbm, ⟨66, _⟩ => ⟨S10000x40, .f32⟩
  | .hbm, ⟨67, _⟩ => ⟨S10000x40, .f32⟩
  | .hbm, ⟨68, _⟩ => ⟨S_, .f32⟩
  | .hbm, ⟨69, _⟩ => ⟨S10000, .f32⟩
  | .hbm, ⟨70, _⟩ => ⟨S10000x1, .f32⟩
  | .hbm, ⟨71, _⟩ => ⟨S10000x1, .f32⟩
  | .hbm, ⟨72, _⟩ => ⟨S10000x40, .f32⟩
  | .hbm, ⟨73, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call3_cst : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call4_cst : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call5_cst : Ref sig .tc := ⟨.hbm, 59, rfl⟩
abbrev main_call5_v0 : Ref sig .tc := ⟨.hbm, 60, rfl⟩
abbrev main_call5_cst_0 : Ref sig .tc := ⟨.hbm, 61, rfl⟩
abbrev main_call5_v1 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_v5 : Ref sig .tc := ⟨.hbm, 66, rfl⟩
abbrev main_call5_v6 : Ref sig .tc := ⟨.hbm, 67, rfl⟩
abbrev main_call5_cst_1 : Ref sig .tc := ⟨.hbm, 68, rfl⟩
abbrev main_call5_v7 : Ref sig .tc := ⟨.hbm, 69, rfl⟩
abbrev main_call5_v8 : Ref sig .tc := ⟨.hbm, 70, rfl⟩
abbrev main_call5_v9 : Ref sig .tc := ⟨.hbm, 71, rfl⟩
abbrev main_call5_v10 : Ref sig .tc := ⟨.hbm, 72, rfl⟩
abbrev main_v35 : Ref sig .tc := ⟨.hbm, 73, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev M10000x128 : Type := (⟨2, ![10000, 128]⟩ : Shape).Idx → EReal
abbrev M10000x10000 : Type := (⟨2, ![10000, 10000]⟩ : Shape).Idx → EReal
abbrev M128x128 : Type := (⟨2, ![128, 128]⟩ : Shape).Idx → EReal
abbrev M128x40 : Type := (⟨2, ![128, 40]⟩ : Shape).Idx → EReal
abbrev M10000x40 : Type := (⟨2, ![10000, 40]⟩ : Shape).Idx → EReal

def negInf : EReal := Ideal.ofBits .f32 0xFF800000#32
def zero32 : EReal := Ideal.ofBits .f32 0x00000000#32

def sup128 (h : M10000x128) (W : M128x128) (k : Fin 10000) (n : Fin 128) : EReal :=
  ∑ j : Fin 128, h (ix2 k j) * W (ix2 j n)

def sup40 (h : M10000x128) (W : M128x40) (k : Fin 10000) (n : Fin 40) : EReal :=
  ∑ j : Fin 128, h (ix2 k j) * W (ix2 j n)

def pre128 (adj : M10000x10000) (h : M10000x128) (W : M128x128) (b : Fin 128 → EReal) (i : Fin 10000) (n : Fin 128) : EReal :=
  (∑ k : Fin 10000, adj (ix2 i k) * sup128 h W k n) + b n

def pre40 (adj : M10000x10000) (h : M10000x128) (W : M128x40) (b : Fin 40 → EReal) (i : Fin 10000) (n : Fin 40) : EReal :=
  (∑ k : Fin 10000, adj (ix2 i k) * sup40 h W k n) + b n

def hid (adj : M10000x10000) (h : M10000x128) (W : M128x128) (b : Fin 128 → EReal) : M10000x128 :=
  fun j => max (pre128 adj h W b (j 0) (j 1)) zero32

def rowmax (x : Fin 40 → EReal) : EReal := (Finset.univ : Finset (Fin 40)).fold max negInf x

def lsmK (x : Fin 40 → EReal) (n : Fin 40) : EReal :=
  x n - (Ideal.log (∑ l : Fin 40, Ideal.exp (x l - rowmax x)) + rowmax x)

def lsmR (x : Fin 40 → EReal) (n : Fin 40) : EReal :=
  (x n - max negInf (rowmax x)) - Ideal.log (zero32 + ∑ l : Fin 40, Ideal.exp (x l - max negInf (rowmax x)))

def outK (adj : M10000x10000) (h : M10000x128) (W : M128x40) (b : Fin 40 → EReal) : M10000x40 :=
  fun j => lsmK (fun n => pre40 adj h W b (j 0) n) (j 1)

def outR (adj : M10000x10000) (h : M10000x128) (W : M128x40) (b : Fin 40 → EReal) : M10000x40 :=
  fun j => lsmR (fun n => pre40 adj h W b (j 0) n) (j 1)

def hidden5 (x : M10000x128) (adj : M10000x10000) (W1 : M128x128) (b1 : Fin 128 → EReal) (W2 : M128x128) (b2 : Fin 128 → EReal)
    (W3 : M128x128) (b3 : Fin 128 → EReal) (W4 : M128x128) (b4 : Fin 128 → EReal) (W5 : M128x128) (b5 : Fin 128 → EReal) : M10000x128 :=
  hid adj (hid adj (hid adj (hid adj (hid adj x W1 b1) W2 b2) W3 b3) W4 b4) W5 b5

def netK (x : M10000x128) (adj : M10000x10000) (W1 : M128x128) (b1 : Fin 128 → EReal) (W2 : M128x128) (b2 : Fin 128 → EReal)
    (W3 : M128x128) (b3 : Fin 128 → EReal) (W4 : M128x128) (b4 : Fin 128 → EReal) (W5 : M128x128) (b5 : Fin 128 → EReal)
    (W6 : M128x40) (b6 : Fin 40 → EReal) : M10000x40 :=
  outK adj (hidden5 x adj W1 b1 W2 b2 W3 b3 W4 b4 W5 b5) W6 b6

def netR (x : M10000x128) (adj : M10000x10000) (W1 : M128x128) (b1 : Fin 128 → EReal) (W2 : M128x128) (b2 : Fin 128 → EReal)
    (W3 : M128x128) (b3 : Fin 128 → EReal) (W4 : M128x128) (b4 : Fin 128 → EReal) (W5 : M128x128) (b5 : Fin 128 → EReal)
    (W6 : M128x40) (b6 : Fin 40 → EReal) : M10000x40 :=
  outR adj (hidden5 x adj W1 b1 W2 b2 W3 b3 W4 b4 W5 b5) W6 b6

def IsFin {ι : Type} (v : ι → EReal) : Prop := ∀ i, ∃ r : ℝ, v i = (r : EReal)

end Cert.Spec

end
-- ==== Proof.RefValue.lean ====
import proofs.«136297_g53695681135103_cont_9to1c4b_48_2_alg».proof.Proof.RefRun
import proofs.«136297_g53695681135103_cont_9to1c4b_48_2_alg».proof.Proof.Spec
import Idealize.ShloMosaic.PureOps.Ideal.Laws
import Idealize.ShloMosaic.Lib.ValueIdx
import Idealize.ShloMosaic.Lib.Pipeline.Value
import Idealize.ShloMosaic.Lib.StackMember

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx

theorem sup128_apply (x : FVec Ideal S10000x128 .f32) (y : FVec Ideal S128x128 .f32) (r : Fin 10000) (n : Fin 128) :
    Host.dotGeneral (F := Ideal) dot_S10000x128_S128x128_S10000x128_1_0_0_1_n_n none x y (ix2 r n) = ∑ k : Fin 128, x (ix2 r k) * y (ix2 k n) :=
  StackMember.dotGeneral_plain_apply none x y r n

theorem agg128_apply (x : FVec Ideal S10000x10000 .f32) (y : FVec Ideal S10000x128 .f32) (r : Fin 10000) (n : Fin 128) :
    Host.dotGeneral (F := Ideal) dot_S10000x10000_S10000x128_S10000x128_1_0_0_1_n_n none x y (ix2 r n) = ∑ k : Fin 10000, x (ix2 r k) * y (ix2 k n) :=
  StackMember.dotGeneral_plain_apply none x y r n

theorem sup40_apply (x : FVec Ideal S10000x128 .f32) (y : FVec Ideal S128x40 .f32) (r : Fin 10000) (n : Fin 40) :
    Host.dotGeneral (F := Ideal) dot_S10000x128_S128x40_S10000x40_1_0_0_1_n_n none x y (ix2 r n) = ∑ k : Fin 128, x (ix2 r k) * y (ix2 k n) :=
  StackMember.dotGeneral_plain_apply none x y r n

theorem agg40_apply (x : FVec Ideal S10000x10000 .f32) (y : FVec Ideal S10000x40 .f32) (r : Fin 10000) (n : Fin 40) :
    Host.dotGeneral (F := Ideal) dot_S10000x10000_S10000x40_S10000x40_1_0_0_1_n_n none x y (ix2 r n) = ∑ k : Fin 10000, x (ix2 r k) * y (ix2 k n) :=
  StackMember.dotGeneral_plain_apply none x y r n

theorem bias128_apply (b : FVec Ideal S128 .f32) (r : Fin 10000) (n : Fin 128) :
    broadcastInDim S10000x128 ![0, 1] bcast_S1x128_S10000x128_0_1 (broadcastInDim S1x128 ![1] bcast_S128_S1x128_1 b) (ix2 r n)
      = b (ix1 n) :=
  (broadcastInDim_apply _ bcast_S1x128_S10000x128_0_1 _ (ix2 r n) (ix2 (0 : Fin 1) n) (fun a => match a with
    | ⟨0, _⟩ => by show 0 = if (1 : Nat) = 1 then 0 else r.val; rw [if_pos rfl]
    | ⟨1, _⟩ => by show n.val = if (128 : Nat) = 1 then 0 else n.val; rw [if_neg (by decide)])).trans
  (broadcastInDim_apply _ bcast_S128_S1x128_1 b (ix2 (0 : Fin 1) n) (ix1 n) (fun a => match a with
    | ⟨0, _⟩ => by show n.val = if (128 : Nat) = 1 then 0 else n.val; rw [if_neg (by decide)]))

theorem bias40_apply (b : FVec Ideal S40 .f32) (r : Fin 10000) (n : Fin 40) :
    broadcastInDim S10000x40 ![0, 1] bcast_S1x40_S10000x40_0_1 (broadcastInDim S1x40 ![1] bcast_S40_S1x40_1 b) (ix2 r n)
      = b (ix1 n) :=
  (broadcastInDim_apply _ bcast_S1x40_S10000x40_0_1 _ (ix2 r n) (ix2 (0 : Fin 1) n) (fun a => match a with
    | ⟨0, _⟩ => by show 0 = if (1 : Nat) = 1 then 0 else r.val; rw [if_pos rfl]
    | ⟨1, _⟩ => by show n.val = if (40 : Nat) = 1 then 0 else n.val; rw [if_neg (by decide)])).trans
  (broadcastInDim_apply _ bcast_S40_S1x40_1 b (ix2 (0 : Fin 1) n) (ix1 n) (fun a => match a with
    | ⟨0, _⟩ => by show n.val = if (40 : Nat) = 1 then 0 else n.val; rw [if_neg (by decide)]))

theorem zero128_apply (j : S10000x128.Idx) :
    broadcastInDim S10000x128 ![] bcast_S_S10000x128 (constant (F := Ideal) S_ .f32 0x00000000#32) j = Cert.Spec.zero32 :=
  broadcastInDim_apply _ bcast_S_S10000x128 _ j ix0 (fun a => a.elim0)

theorem negInf_apply (j : S10000.Idx) :
    broadcastInDim S10000 ![] bcast_S_S10000 (constant (F := Ideal) S_ .f32 0xFF800000#32) j = Cert.Spec.negInf :=
  broadcastInDim_apply _ bcast_S_S10000 _ j ix0 (fun a => a.elim0)

theorem col_apply (u : FVec Ideal S10000 .f32) (r : Fin 10000) :
    broadcastInDim S10000x1 ![0] bcast_S10000_S10000x1_0 u (ix2 r (0 : Fin 1)) = u (ix1 r) :=
  broadcastInDim_apply _ bcast_S10000_S10000x1_0 u (ix2 r (0 : Fin 1)) (ix1 r) (fun a => match a with
    | ⟨0, _⟩ => by show r.val = if (10000 : Nat) = 1 then 0 else r.val; rw [if_neg (by decide)])

theorem spread_apply (w : FVec Ideal S10000x1 .f32) (r : Fin 10000) (n : Fin 40) :
    broadcastInDim S10000x40 ![0, 1] bcast_S10000x1_S10000x40_0_1 w (ix2 r n) = w (ix2 r (0 : Fin 1)) :=
  broadcastInDim_apply _ bcast_S10000x1_S10000x40_0_1 w (ix2 r n) (ix2 r (0 : Fin 1)) (fun a => match a with
    | ⟨0, _⟩ => by show r.val = if (10000 : Nat) = 1 then 0 else r.val; rw [if_neg (by decide)]
    | ⟨1, _⟩ => by show 0 = if (1 : Nat) = 1 then 0 else n.val; rw [if_pos rfl])

theorem hid_eq (adj : FVec Ideal S10000x10000 .f32) (h : FVec Ideal S10000x128 .f32) (W : FVec Ideal S128x128 .f32)
    (b : FVec Ideal S128 .f32) :
    maximumf (addf (Host.dotGeneral (F := Ideal) dot_S10000x10000_S10000x128_S10000x128_1_0_0_1_n_n none adj
        (Host.dotGeneral (F := Ideal) dot_S10000x128_S128x128_S10000x128_1_0_0_1_n_n none h W))
        (broadcastInDim S10000x128 ![0, 1] bcast_S1x128_S10000x128_0_1 (broadcastInDim S1x128 ![1] bcast_S128_S1x128_1 b)))
      (broadcastInDim S10000x128 ![] bcast_S_S10000x128 (constant (F := Ideal) S_ .f32 0x00000000#32))
      = Cert.Spec.hid adj h W (fun n => b (ix1 n)) := by
  funext j
  obtain ⟨r, n, rfl⟩ : ∃ (r : Fin 10000) (n : Fin 128), j = ix2 r n := ⟨j 0, j 1, eq_ix2 j⟩
  rw [maximumf_apply, addf_apply, agg128_apply, bias128_apply, zero128_apply]
  simp only [sup128_apply]
  rfl

theorem pre40_apply (adj : FVec Ideal S10000x10000 .f32) (h : FVec Ideal S10000x128 .f32) (W : FVec Ideal S128x40 .f32)
    (b : FVec Ideal S40 .f32) (r : Fin 10000) (n : Fin 40) :
    addf (Host.dotGeneral (F := Ideal) dot_S10000x10000_S10000x40_S10000x40_1_0_0_1_n_n none adj
        (Host.dotGeneral (F := Ideal) dot_S10000x128_S128x40_S10000x40_1_0_0_1_n_n none h W))
        (broadcastInDim S10000x40 ![0, 1] bcast_S1x40_S10000x40_0_1 (broadcastInDim S1x40 ![1] bcast_S40_S1x40_1 b)) (ix2 r n)
      = Cert.Spec.pre40 adj h W (fun n => b (ix1 n)) r n := by
  rw [addf_apply, agg40_apply, bias40_apply]
  simp only [sup40_apply]
  rfl

theorem red40 : S10000x40.Reduces [1] S10000 := by decide

theorem lift40 (r : Fin 10000) (k : Fin 40) : red40.lift (ix1 r) k = ix2 r k :=
  funext fun a => Fin.ext (by match a with | ⟨0, _⟩ => rfl | ⟨1, _⟩ => rfl)

theorem rowmax_apply (v : FVec Ideal S10000x40 .f32) (r : Fin 10000) :
    Host.reduce (FloatOps.maximumf (F := Ideal) (φ := .f32)) v (constant (F := Ideal) S_ .f32 0xFF800000#32) reducesTo_S10000x40_S10000_d1 h_S_ (ix1 r)
      = Cert.Spec.rowmax (fun n => v (ix2 r n)) := by
  rw [Host.reduce_eq_fold_single _ v _ reducesTo_S10000x40_S10000_d1 red40 h_S_ (ix1 r)]
  have e : v ∘ red40.lift (ix1 r) = fun n : Fin 40 => v (ix2 r n) := funext fun k => congrArg v (lift40 r k)
  rw [e]
  rfl

theorem rowsum_apply (v : FVec Ideal S10000x40 .f32) (r : Fin 10000) :
    Host.reduceAdd (F := Ideal) v (constant (F := Ideal) S_ .f32 0x00000000#32) reducesTo_S10000x40_S10000_d1 h_S_ (ix1 r)
      = Cert.Spec.zero32 + ∑ l : Fin 40, v (ix2 r l) := by
  simp only [Host.reduceAdd, Ideal.hostReduceAdd_def]
  rw [Ideal.hostReduceAdd_single reducesTo_S10000x40_S10000_d1 red40]
  unfold Cert.Spec.zero32
  refine congrArg (_ + ·) (Finset.sum_congr rfl fun k _ => ?_)
  exact congrArg v (lift40 r k)

theorem hostExp_apply {s : Shape} (w : FVec Ideal s .f32) (i : s.Idx) : Host.exp (F := Ideal) w i = Ideal.exp (w i) := rfl
theorem hostLog_apply {s : Shape} (w : FVec Ideal s .f32) (i : s.Idx) : Host.log (F := Ideal) w i = Ideal.log (w i) := rfl

theorem lsm_apply (X : FVec Ideal S10000x40 .f32) (r : Fin 10000) (n : Fin 40) :
    subf (subf X (broadcastInDim S10000x40 ![0, 1] bcast_S10000x1_S10000x40_0_1 (broadcastInDim S10000x1 ![0] bcast_S10000_S10000x1_0 (maximumf (broadcastInDim S10000 ![] bcast_S_S10000 (constant (F := Ideal) S_ .f32 0xFF800000#32)) (Host.reduce (FloatOps.maximumf (F := Ideal) (φ := .f32)) X (constant (F := Ideal) S_ .f32 0xFF800000#32) reducesTo_S10000x40_S10000_d1 h_S_))))) (broadcastInDim S10000x40 ![0, 1] bcast_S10000x1_S10000x40_0_1 (Host.log (F := Ideal) (broadcastInDim S10000x1 ![0] bcast_S10000_S10000x1_0 (Host.reduceAdd (F := Ideal) (Host.exp (F := Ideal) (subf X (broadcastInDim S10000x40 ![0, 1] bcast_S10000x1_S10000x40_0_1 (broadcastInDim S10000x1 ![0] bcast_S10000_S10000x1_0 (maximumf (broadcastInDim S10000 ![] bcast_S_S10000 (constant (F := Ideal) S_ .f32 0xFF800000#32)) (Host.reduce (FloatOps.maximumf (F := Ideal) (φ := .f32)) X (constant (F := Ideal) S_ .f32 0xFF800000#32) reducesTo_S10000x40_S10000_d1 h_S_)))))) (constant (F := Ideal) S_ .f32 0x00000000#32) reducesTo_S10000x40_S10000_d1 h_S_)))) (ix2 r n)
      = Cert.Spec.lsmR (fun n => X (ix2 r n)) n := by
  have hM : ∀ n' : Fin 40, (broadcastInDim S10000x40 ![0, 1] bcast_S10000x1_S10000x40_0_1 (broadcastInDim S10000x1 ![0] bcast_S10000_S10000x1_0 (maximumf (broadcastInDim S10000 ![] bcast_S_S10000 (constant (F := Ideal) S_ .f32 0xFF800000#32)) (Host.reduce (FloatOps.maximumf (F := Ideal) (φ := .f32)) X (constant (F := Ideal) S_ .f32 0xFF800000#32) reducesTo_S10000x40_S10000_d1 h_S_)))) (ix2 r n')
      = max Cert.Spec.negInf (Cert.Spec.rowmax fun n => X (ix2 r n)) := fun n' => by
    rw [spread_apply, col_apply, maximumf_apply, negInf_apply, rowmax_apply]
  rw [subf_apply, subf_apply, hM, spread_apply, hostLog_apply, col_apply, rowsum_apply]
  simp only [hostExp_apply, subf_apply, hM]
  rfl

theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v35 (F := Ideal) m c
      = Cert.Spec.netR (m ((c.tc : Thread nD τ).loc main_arg0)) (m ((c.tc : Thread nD τ).loc main_arg1))
          (m ((c.tc : Thread nD τ).loc main_arg2)) (fun n => m ((c.tc : Thread nD τ).loc main_arg3) (ix1 n))
          (m ((c.tc : Thread nD τ).loc main_arg4)) (fun n => m ((c.tc : Thread nD τ).loc main_arg5) (ix1 n))
          (m ((c.tc : Thread nD τ).loc main_arg6)) (fun n => m ((c.tc : Thread nD τ).loc main_arg7) (ix1 n))
          (m ((c.tc : Thread nD τ).loc main_arg8)) (fun n => m ((c.tc : Thread nD τ).loc main_arg9) (ix1 n))
          (m ((c.tc : Thread nD τ).loc main_arg10)) (fun n => m ((c.tc : Thread nD τ).loc main_arg11) (ix1 n))
          (m ((c.tc : Thread nD τ).loc main_arg12)) (fun n => m ((c.tc : Thread nD τ).loc main_arg13) (ix1 n)) := by
  unfold Cert.ReferenceIdeal.ValueP.res_main_v35
  generalize m ((c.tc : Thread nD τ).loc main_arg0) = x0
  change FVec Ideal S10000x128 .f32 at x0
  generalize m ((c.tc : Thread nD τ).loc main_arg1) = x1
  change FVec Ideal S10000x10000 .f32 at x1
  generalize m ((c.tc : Thread nD τ).loc main_arg2) = x2
  change FVec Ideal S128x128 .f32 at x2
  generalize m ((c.tc : Thread nD τ).loc main_arg3) = x3
  change FVec Ideal S128 .f32 at x3
  generalize m ((c.tc : Thread nD τ).loc main_arg4) = x4
  change FVec Ideal S128x128 .f32 at x4
  generalize m ((c.tc : Thread nD τ).loc main_arg5) = x5
  change FVec Ideal S128 .f32 at x5
  generalize m ((c.tc : Thread nD τ).loc main_arg6) = x6
  change FVec Ideal S128x128 .f32 at x6
  generalize m ((c.tc : Thread nD τ).loc main_arg7) = x7
  change FVec Ideal S128 .f32 at x7
  generalize m ((c.tc : Thread nD τ).loc main_arg8) = x8
  change FVec Ideal S128x128 .f32 at x8
  generalize m ((c.tc : Thread nD τ).loc main_arg9) = x9
  change FVec Ideal S128 .f32 at x9
  generalize m ((c.tc : Thread nD τ).loc main_arg10) = x10
  change FVec Ideal S128x128 .f32 at x10
  generalize m ((c.tc : Thread nD τ).loc main_arg11) = x11
  change FVec Ideal S128 .f32 at x11
  generalize m ((c.tc : Thread nD τ).loc main_arg12) = x12
  change FVec Ideal S128x40 .f32 at x12
  generalize m ((c.tc : Thread nD τ).loc main_arg13) = x13
  change FVec Ideal S40 .f32 at x13
  rw [hid_eq, hid_eq, hid_eq, hid_eq, hid_eq]
  funext j
  obtain ⟨r, n, rfl⟩ : ∃ (r : Fin 10000) (n : Fin 40), j = ix2 r n := ⟨j 0, j 1, eq_ix2 j⟩
  rw [lsm_apply]
  refine (congrArg (fun f => Cert.Spec.lsmR f n) (funext fun n' => pre40_apply x1 _ x12 x13 r n')).trans ?_
  rfl

end Cert.ReferenceIdeal.RefValue

end
-- ==== Proof.Algebra.lean ====
import Idealize.ShloMosaic.PureOps.Ideal
import Idealize.ShloMosaic.Lib.ValueIdx
import proofs.«136297_g53695681135103_cont_9to1c4b_48_2_alg».proof.Proof.Spec

noncomputable section

open scoped BigOperators

namespace Cert.Spec

open Idealize.ShloMosaic Idealize.ShloMosaic.ValueIdx

theorem negInf_eq : negInf = ⊥ := by
  simp [negInf, Ideal.ofBits, Ideal.ieee]

theorem zero32_eq : zero32 = 0 := by
  simp [zero32, Ideal.ofBits, Ideal.ieee]

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_isReal {ι : Type} [Fintype ι] (f g : ι → EReal) (hf : IsFin f) (hg : IsFin g) :
    ∃ r : ℝ, ∑ i, f i * g i = (r : EReal) := by
  choose a ha using hf
  choose c hc using hg
  exact ⟨∑ i, a i * c i, by rw [coe_sum]; exact Finset.sum_congr rfl fun i _ => by rw [ha i, hc i, EReal.coe_mul]⟩

theorem pre_isReal {ι κ : Type} [Fintype ι] [Fintype κ] (f : ι → EReal) (g : ι → κ → EReal) (w : κ → EReal) (b : EReal)
    (hf : IsFin f) (hg : ∀ k, IsFin (g k)) (hw : IsFin w) (hb : ∃ r : ℝ, b = r) :
    ∃ r : ℝ, (∑ k, f k * ∑ j, g k j * w j) + b = (r : EReal) := by
  obtain ⟨s, hs⟩ := sum_mul_isReal f (fun k => ∑ j, g k j * w j) hf fun k => sum_mul_isReal (g k) w (hg k) hw
  obtain ⟨c, hc⟩ := hb
  exact ⟨s + c, by rw [hs, hc, EReal.coe_add]⟩

theorem hid_isFin (adj : M10000x10000) (h : M10000x128) (W : M128x128) (b : Fin 128 → EReal)
    (hadj : IsFin adj) (hh : IsFin h) (hW : IsFin W) (hb : IsFin b) : IsFin (hid adj h W b) := by
  intro j
  obtain ⟨r, hr⟩ : ∃ r : ℝ, pre128 adj h W b (j 0) (j 1) = r :=
    pre_isReal (fun k => adj (ix2 (j 0) k)) (fun k i => h (ix2 k i)) (fun i => W (ix2 i (j 1))) (b (j 1))
      (fun _ => hadj _) (fun _ _ => hh _) (fun _ => hW _) (hb _)
  refine ⟨max r 0, ?_⟩
  show max (pre128 adj h W b (j 0) (j 1)) zero32 = ((max r 0 : ℝ) : EReal)
  rw [hr, zero32_eq, ← EReal.coe_zero]
  exact (EReal.coe_strictMono.monotone.map_max).symm

theorem rowmax_isReal (x : Fin 40 → EReal) (hx : IsFin x) : ∃ M : ℝ, rowmax x = (M : EReal) := by
  have h : rowmax x = (Finset.univ : Finset (Fin 40)).sup x := by
    unfold rowmax
    rw [negInf_eq]
    rfl
  obtain ⟨i, -, hi⟩ := Finset.exists_mem_eq_sup (Finset.univ : Finset (Fin 40)) Finset.univ_nonempty x
  obtain ⟨r, hr⟩ := hx i
  exact ⟨r, by rw [h, hi, hr]⟩

theorem lsmK_eq_lsmR (x : Fin 40 → EReal) (hx : IsFin x) (n : Fin 40) : lsmK x n = lsmR x n := by
  obtain ⟨M, hM⟩ := rowmax_isReal x hx
  choose a ha using hx
  have hexp : ∀ l : Fin 40, Ideal.exp (x l - (M : EReal)) = ((Real.exp (a l - M) : ℝ) : EReal) := by
    intro l
    rw [ha l, ← EReal.coe_sub, Ideal.exp_coe]
  have hpos : 0 < ∑ l : Fin 40, Real.exp (a l - M) :=
    Finset.sum_pos (fun l _ => Real.exp_pos _) Finset.univ_nonempty
  unfold lsmK lsmR
  rw [hM, negInf_eq, zero32_eq, max_eq_right bot_le, zero_add]
  simp only [hexp]
  rw [← coe_sum, Ideal.log_coe, if_neg (not_le.mpr hpos), ha n, ← EReal.coe_add, ← EReal.coe_sub,
    ← EReal.coe_sub, ← EReal.coe_sub]
  congr 1
  ring

theorem outK_eq_outR (adj : M10000x10000) (h : M10000x128) (W : M128x40) (b : Fin 40 → EReal)
    (hadj : IsFin adj) (hh : IsFin h) (hW : IsFin W) (hb : IsFin b) : outK adj h W b = outR adj h W b :=
  funext fun j => lsmK_eq_lsmR (fun n => pre40 adj h W b (j 0) n)
    (fun n => pre_isReal (fun k => adj (ix2 (j 0) k)) (fun k i => h (ix2 k i)) (fun i => W (ix2 i n)) (b n)
      (fun _ => hadj _) (fun _ _ => hh _) (fun _ => hW _) (hb n)) (j 1)

theorem netK_eq_netR (x : M10000x128) (adj : M10000x10000) (W1 : M128x128) (b1 : Fin 128 → EReal)
    (W2 : M128x128) (b2 : Fin 128 → EReal) (W3 : M128x128) (b3 : Fin 128 → EReal)
    (W4 : M128x128) (b4 : Fin 128 → EReal) (W5 : M128x128) (b5 : Fin 128 → EReal)
    (W6 : M128x40) (b6 : Fin 40 → EReal)
    (hx : IsFin x) (hadj : IsFin adj) (hW1 : IsFin W1) (hb1 : IsFin b1) (hW2 : IsFin W2) (hb2 : IsFin b2)
    (hW3 : IsFin W3) (hb3 : IsFin b3) (hW4 : IsFin W4) (hb4 : IsFin b4) (hW5 : IsFin W5) (hb5 : IsFin b5)
    (hW6 : IsFin W6) (hb6 : IsFin b6) :
    netK x adj W1 b1 W2 b2 W3 b3 W4 b4 W5 b5 W6 b6 = netR x adj W1 b1 W2 b2 W3 b3 W4 b4 W5 b5 W6 b6 := by
  have h1 := hid_isFin adj x W1 b1 hadj hx hW1 hb1
  have h2 := hid_isFin adj _ W2 b2 hadj h1 hW2 hb2
  have h3 := hid_isFin adj _ W3 b3 hadj h2 hW3 hb3
  have h4 := hid_isFin adj _ W4 b4 hadj h3 hW4 hb4
  have h5 := hid_isFin adj _ W5 b5 hadj h4 hW5 hb5
  exact outK_eq_outR adj _ W6 b6 hadj h5 hW6 hb6

end Cert.Spec

end
-- ==== Proof.Finite.lean ====
import proofs.«136297_g53695681135103_cont_9to1c4b_48_2_alg».proof.Defs
import proofs.«136297_g53695681135103_cont_9to1c4b_48_2_alg».proof.Proof.Gen.Pre_finite_inputs
import proofs.«136297_g53695681135103_cont_9to1c4b_48_2_alg».proof.Proof.Spec
import Idealize.ShloMosaic.Lib.ReduceAll
import Idealize.ShloMosaic.Lib.ValueIdx

noncomputable section

namespace Cert.Proof.Finite

open Idealize.ShloMosaic Idealize.SL.Sem Cert.KernelIdeal Cert.Spec
open Cert.Pre_finite_inputs (fn fn_part1 fn_part2 fn_part3 fn_part4)

instance subsingleton_idx0 : Subsingleton (⟨0, ![]⟩ : Shape).Idx := ⟨fun a b => funext fun d => d.elim0⟩

theorem ofBits_inf : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem isFin_of_all {S : Shape} {axes : List (Fin S.rank)} {hb : (⟨0, ![]⟩ : Shape).BroadcastsInDim S ![]}
    {hr : S.ReducesTo axes (⟨0, ![]⟩ : Shape)} {hu : 0 < (⟨0, ![]⟩ : Shape).numel} {x : FVec Ideal S .f32}
    (e : Host.reduce IntOp.andi
          (cmpf .olt (Host.absf x) (broadcastInDim S ![] hb (constant (F := Ideal) (⟨0, ![]⟩ : Shape) .f32 0x7F800000#32)))
          (constantI (⟨0, ![]⟩ : Shape) 1 1#1) hr hu ValueIdx.ix0 = 1#1) :
    IsFin (ι := S.Idx) x := by
  intro i
  have h2 : Ideal.cmp .olt (max (x i) (-(x i))) (Ideal.ofBits .f32 0x7F800000#32) = 1#1 :=
    Host.reduce_andi_all _ _ hr hu ValueIdx.ix0 e i
  rw [ofBits_inf] at h2
  unfold Ideal.cmp at h2
  exact real_of_abs_lt_top (x i) (by by_contra hn; simp [hn] at h2)

theorem isFin_of_pre [Cert.Pre_finite_inputs.Facts] (m : (ℓ : Loc nD τ sig) → Buf (Elt Ideal) ℓ)
    (h : Cert.Pre_KernelIdeal m) (c : Dev nD) :
      IsFin ((m ((c.tc : Thread nD τ).loc main_arg0)) : S10000x128.Idx → EReal)
      ∧ IsFin ((m ((c.tc : Thread nD τ).loc main_arg1)) : S10000x10000.Idx → EReal)
      ∧ IsFin ((m ((c.tc : Thread nD τ).loc main_arg2)) : S128x128.Idx → EReal)
      ∧ IsFin ((m ((c.tc : Thread nD τ).loc main_arg3)) : S128.Idx → EReal)
      ∧ IsFin ((m ((c.tc : Thread nD τ).loc main_arg4)) : S128x128.Idx → EReal)
      ∧ IsFin ((m ((c.tc : Thread nD τ).loc main_arg5)) : S128.Idx → EReal)
      ∧ IsFin ((m ((c.tc : Thread nD τ).loc main_arg6)) : S128x128.Idx → EReal)
      ∧ IsFin ((m ((c.tc : Thread nD τ).loc main_arg7)) : S128.Idx → EReal)
      ∧ IsFin ((m ((c.tc : Thread nD τ).loc main_arg8)) : S128x128.Idx → EReal)
      ∧ IsFin ((m ((c.tc : Thread nD τ).loc main_arg9)) : S128.Idx → EReal)
      ∧ IsFin ((m ((c.tc : Thread nD τ).loc main_arg10)) : S128x128.Idx → EReal)
      ∧ IsFin ((m ((c.tc : Thread nD τ).loc main_arg11)) : S128.Idx → EReal)
      ∧ IsFin ((m ((c.tc : Thread nD τ).loc main_arg12)) : S128x40.Idx → EReal)
      ∧ IsFin ((m ((c.tc : Thread nD τ).loc main_arg13)) : S40.Idx → EReal) := by
  have e := congrFun (h c) ValueIdx.ix0
  dsimp only [fn, fn_part1, fn_part2, fn_part3, fn_part4, andi] at e
  simp only [IntOp.andi_eq_one] at e
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := e
  exact ⟨isFin_of_all e0, isFin_of_all e1, isFin_of_all e2, isFin_of_all e3, isFin_of_all e4, isFin_of_all e5,
    isFin_of_all e6, isFin_of_all e7, isFin_of_all e8, isFin_of_all e9, isFin_of_all e10, isFin_of_all e11,
    isFin_of_all e12, isFin_of_all e13⟩

end Cert.Proof.Finite

end
-- ==== Proof.KI.Region0Run.lean ====
import proofs.«136297_g53695681135103_cont_9to1c4b_48_2_alg».proof.Proof.Gen.KernelIdeal.Launch
import proofs.«136297_g53695681135103_cont_9to1c4b_48_2_alg».proof.Proof.Gen.KernelIdeal.Skeleton
import proofs.«136297_g53695681135103_cont_9to1c4b_48_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev scM0 : Memref sig .tc .vmem S10000x128 .bf16 := Memref.whole cc0_scratch0
abbrev VO0 : View sig .tc .vmem S400x128 .f32 := (Memref.whole cc0_stg4_0 : Memref sig .tc .vmem S400x128 .f32).view
abbrev VS0 : View sig .tc .vmem S10000x128 .bf16 := scM0.view

abbrev t0_0 : Fin cfg0.N := ⟨0, by decide⟩

theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid0.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun0_A (hc0 : cond0 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer_body i arg1 harg1 arg2 harg2 arg3 harg3 arg4 harg4 arg5 harg5 arg6 harg6) K } :=
  ⟨_, _, fun E K => by
    simp (disch := assumption) only [cc0__layer_body_eq_skeleton, owns_unread]
    unfold cc0__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun0_B (hc0 : ¬cond0 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__layer_body i arg1 harg1 arg2 harg2 arg3 harg3 arg4 harg4 arg5 harg5 arg6 harg6) K } :=
  ⟨_, fun E K => by
    simp (disch := assumption) only [cc0__layer_body_eq_skeleton, owns_unread]
    unfold cc0__layer_body_skel
    iintro ⟨H0, H1, H2, H3, ⟨%d4, H4⟩, HS, Hk⟩
    sl_exec (disch := exact hc0)
    sl_step
    iapply Hk
    iframe
    iexists _; iexact H4⟩

end

end Cert.KernelIdeal.Hand

end
-- ==== Proof.KI.Region0.lean ====
import proofs.«136297_g53695681135103_cont_9to1c4b_48_2_alg».proof.Proof.KI.Region0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid0.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond0 i) (x0 : Vec F S10000x128 .f32) (x1 : Vec F S128x128 .f32) (x2 : Vec F S1x128 .f32) (x3 : Vec F S400x10000 .bf16)

theorem cover0_A (y : S400x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S400x128.size (by sl_kernel_rfl) y

def out0_A : Vec F S400x128 .f32 :=
  VO0.read (Elt F) (VO0.writes (Elt F) VO0.junk (kernelRun0_A c i arg1 harg1 arg2 harg2 arg3 harg3 arg4 harg4 arg5 harg5 arg6 harg6 hc0 x0 x1 x2 x3).1)

theorem scover0_A (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

def sout0_A : Vec F S10000x128 .bf16 :=
  VS0.read (Elt F) (VS0.writes (Elt F) VS0.junk (kernelRun0_A c i arg1 harg1 arg2 harg2 arg3 harg3 arg4 harg4 arg5 harg5 arg6 harg6 hc0 x0 x1 x2 x3).2.1)

end

section

variable (hc0 : ¬cond0 i) (x0 : Vec F S10000x128 .f32) (x1 : Vec F S128x128 .f32) (x2 : Vec F S1x128 .f32) (x3 : Vec F S400x10000 .bf16) (xs : Vec F S10000x128 .bf16)

theorem cover0_B (y : S400x128.Idx) :
    ∃ pc ∈ (kernelRun0_B c i arg1 harg1 arg2 harg2 arg3 harg3 arg4 harg4 arg5 harg5 arg6 harg6 hc0 x0 x1 x2 x3 xs).1, y ∈ pc.1.set :=
  View.cover_of_tiledL (kernelRun0_B c i arg1 harg1 arg2 harg2 arg3 harg3 arg4 harg4 arg5 harg5 arg6 harg6 hc0 x0 x1 x2 x3 xs).1 S400x128.size (by sl_kernel_rfl) y

def out0_B : Vec F S400x128 .f32 :=
  VO0.read (Elt F) (VO0.writes (Elt F) VO0.junk (kernelRun0_B c i arg1 harg1 arg2 harg2 arg3 harg3 arg4 harg4 arg5 harg5 arg6 harg6 hc0 x0 x1 x2 x3 xs).1)

end

end

theorem hc0_first : cond0 (grid0.coords t0_0) := (hcond0 t0_0).mpr rfl

def scr0 (c : Dev nD) : Vec F S10000x128 .bf16 :=
  sout0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hc0_first (iblk0 V c 0 t0_0) (iblk0 V c 1 t0_0) (iblk0 V c 2 t0_0) (iblk0 V c 3 t0_0)

def outAt0 (c : Dev nD) (t : Fin cfg0.N) : Vec F S400x128 .f32 :=
  if h : t.val = 0 then
    out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h) (iblk0 V c 0 t) (iblk0 V c 1 t) (iblk0 V c 2 t) (iblk0 V c 3 t)
  else
    out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0 t).mp hc)) (iblk0 V c 0 t) (iblk0 V c 1 t) (iblk0 V c 2 t) (iblk0 V c 3 t) (scr0 V c)

theorem outAt0_first (c : Dev nD) (t : Fin cfg0.N) (h : t.val = 0) :
    outAt0 V c t = out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h) (iblk0 V c 0 t) (iblk0 V c 1 t) (iblk0 V c 2 t) (iblk0 V c 3 t) := dif_pos h

theorem outAt0_later (c : Dev nD) (t : Fin cfg0.N) (h : ¬t.val = 0) :
    outAt0 V c t = out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0 t).mp hc)) (iblk0 V c 0 t) (iblk0 V c 1 t) (iblk0 V c 2 t) (iblk0 V c 3 t) (scr0 V c) := dif_neg h

def PhiS0 (c : Dev nD) : sProp 𝕄 :=
  iprop(iprop(owns (c : Thread nD τ) scM0 fullShare (scr0 V c) ∗ Pipeline.scopedRestBut (Ix := Unit) (Name := ℕ) (U := UR sig nD τ) (Lvl := ℕ) (Val := Elt F) spec0 c [cc0_scratch0]) ∗ (∃ r, prngReg c r))

def Phi0 (c : Dev nD) (n : ℕ) : sProp 𝕄 := if n = 0 then Pipeline.ΦA spec0 c else PhiS0 V c

theorem Phi0_zero (c : Dev nD) : Phi0 V c 0 = Pipeline.ΦA spec0 c := if_pos rfl
theorem Phi0_pos (c : Dev nD) (n : ℕ) (hn : n ≠ 0) : Phi0 V c n = PhiS0 V c := if_neg hn

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = Phi0 V c (t.val + 1) from rfl,
    show (dat0 V c).Φ t.castSucc = Phi0 V c t.val from rfl,
    Phi0_pos V c (t.val + 1) (Nat.succ_ne_zero _),
    after0_0, after0_1, after0_2, after0_3, after0_4]
  unfold PhiS0
  by_cases hz : t.val = 0
  · obtain rfl : t = t0_0 := Fin.ext hz
    rw [outAt0_first V c t0_0 rfl, show Phi0 V c (t0_0 : Fin cfg0.N).val = Pipeline.ΦA spec0 c from Phi0_zero V c, PhiA0_eq]
    unfold out0_A scr0 sout0_A
    iintro ⟨⟨⟨HS, HR⟩, Hg⟩, Ho, ⟨%d0, H0⟩, ⟨%d1, H1⟩, ⟨%d2, H2⟩, ⟨%d3, H3⟩, ⟨%d4, H4⟩⟩
    iapply ((kernelRun0_A c (grid0.coords t0_0) _ _ _ _ _ _ _ _ _ _ _ _ hc0_first (iblk0 V c 0 t0_0) (iblk0 V c 1 t0_0) (iblk0 V c 2 t0_0) (iblk0 V c 3 t0_0)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover0_A c _ _ _ _ _ _ _ _ _ _ _ _ _ _ _ _ _ _)
    iexists _; isplitr
    swap; · iexact H4
    ipureintro; exact View.read_writes_of_cover _ _ _ _ _ (cover0_A c _ _ _ _ _ _ _ _ _ _ _ _ _ _ _ _ _ _)
  · rw [outAt0_later V c t hz, Phi0_pos V c t.val hz]
    unfold out0_B PhiS0
    iintro ⟨⟨⟨HS, HR⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun hc => hz ((hcond0 t).mp hc)) (iblk0 V c 0 t) (iblk0 V c 1 t) (iblk0 V c 2 t) (iblk0 V c 3 t) (scr0 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover0_B c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Phi0 V c 0 from rfl, Phi0_zero]
  try exact Idealize.SL.BI.Entails.refl _

theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 25 := N_0; omega), PhiA0_eq]
  unfold PhiS0
  iintro ⟨⟨HS, HR⟩, Hg⟩
  iframe HR Hg
  iexists _; iexact HS

end Cert.KernelIdeal.Hand

end
-- ==== Proof.KI.Region1Run.lean ====
import proofs.«136297_g53695681135103_cont_9to1c4b_48_2_alg».proof.Proof.Gen.KernelIdeal.Launch
import proofs.«136297_g53695681135103_cont_9to1c4b_48_2_alg».proof.Proof.Gen.KernelIdeal.Skeleton
import proofs.«136297_g53695681135103_cont_9to1c4b_48_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x10000 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S400x128 .f32 := win1_4.stage (cfg1.slots t 4)
abbrev hs1_4 (t : Fin cfg1.N) : (ms1_4 t).IsWhole := hstage1_4 ((cfg1.slots t 4).cast nbuf1_4)
abbrev scM1 : Memref sig .tc .vmem S10000x128 .bf16 := Memref.whole cc1_scratch0
abbrev VO1 : View sig .tc .vmem S400x128 .f32 := (Memref.whole cc1_stg4_0 : Memref sig .tc .vmem S400x128 .f32).view
abbrev VS1 : View sig .tc .vmem S10000x128 .bf16 := scM1.view

abbrev t0_1 : Fin cfg1.N := ⟨0, by decide⟩

theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid1.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun1_A (hc0 : cond1 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc1__layer_body i arg1 harg1 arg2 harg2 arg3 harg3 arg4 harg4 arg5 harg5 arg6 harg6) K } :=
  ⟨_, _, fun E K => by
    simp (disch := assumption) only [cc1__layer_body_eq_skeleton, owns_unread]
    unfold cc1__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun1_B (hc0 : ¬cond1 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc1__layer_body i arg1 harg1 arg2 harg2 arg3 harg3 arg4 harg4 arg5 harg5 arg6 harg6) K } :=
  ⟨_, fun E K => by
    simp (disch := assumption) only [cc1__layer_body_eq_skeleton, owns_unread]
    unfold cc1__layer_body_skel
    iintro ⟨H0, H1, H2, H3, ⟨%d4, H4⟩, HS, Hk⟩
    sl_exec (disch := exact hc0)
    sl_step
    iapply Hk
    iframe
    iexists _; iexact H4⟩

end

end Cert.KernelIdeal.Hand

end
-- ==== Proof.KI.Region1.lean ====
import proofs.«136297_g53695681135103_cont_9to1c4b_48_2_alg».proof.Proof.KI.Region1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid1.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond1 i) (x0 : Vec F S10000x128 .f32) (x1 : Vec F S128x128 .f32) (x2 : Vec F S1x128 .f32) (x3 : Vec F S400x10000 .bf16)

theorem cover1_A (y : S400x128.Idx) :
    ∃ pc ∈ (kernelRun1_A c i arg1 harg1 arg2 harg2 arg3 harg3 arg4 harg4 arg5 harg5 arg6 harg6 hc0 x0 x1 x2 x3).1, y ∈ pc.1.set :=
  View.cover_of_tiledL (kernelRun1_A c i arg1 harg1 arg2 harg2 arg3 harg3 arg4 harg4 arg5 harg5 arg6 harg6 hc0 x0 x1 x2 x3).1 S400x128.size (by sl_kernel_rfl) y

def out1_A : Vec F S400x128 .f32 :=
  VO1.read (Elt F) (VO1.writes (Elt F) VO1.junk (kernelRun1_A c i arg1 harg1 arg2 harg2 arg3 harg3 arg4 harg4 arg5 harg5 arg6 harg6 hc0 x0 x1 x2 x3).1)

theorem scover1_A (y : S10000x128.Idx) :
    ∃ pc ∈ (kernelRun1_A c i arg1 harg1 arg2 harg2 arg3 harg3 arg4 harg4 arg5 harg5 arg6 harg6 hc0 x0 x1 x2 x3).2.1, y ∈ pc.1.set :=
  View.cover_of_tiledL (kernelRun1_A c i arg1 harg1 arg2 harg2 arg3 harg3 arg4 harg4 arg5 harg5 arg6 harg6 hc0 x0 x1 x2 x3).2.1 S10000x128.size (by sl_kernel_rfl) y

def sout1_A : Vec F S10000x128 .bf16 :=
  VS1.read (Elt F) (VS1.writes (Elt F) VS1.junk (kernelRun1_A c i arg1 harg1 arg2 harg2 arg3 harg3 arg4 harg4 arg5 harg5 arg6 harg6 hc0 x0 x1 x2 x3).2.1)

end

section

variable (hc0 : ¬cond1 i) (x0 : Vec F S10000x128 .f32) (x1 : Vec F S128x128 .f32) (x2 : Vec F S1x128 .f32) (x3 : Vec F S400x10000 .bf16) (xs : Vec F S10000x128 .bf16)

theorem cover1_B (y : S400x128.Idx) :
    ∃ pc ∈ (kernelRun1_B c i arg1 harg1 arg2 harg2 arg3 harg3 arg4 harg4 arg5 harg5 arg6 harg6 hc0 x0 x1 x2 x3 xs).1, y ∈ pc.1.set :=
  View.cover_of_tiledL (kernelRun1_B c i arg1 harg1 arg2 harg2 arg3 harg3 arg4 harg4 arg5 harg5 arg6 harg6 hc0 x0 x1 x2 x3 xs).1 S400x128.size (by sl_kernel_rfl) y

def out1_B : Vec F S400x128 .f32 :=
  VO1.read (Elt F) (VO1.writes (Elt F) VO1.junk (kernelRun1_B c i arg1 harg1 arg2 harg2 arg3 harg3 arg4 harg4 arg5 harg5 arg6 harg6 hc0 x0 x1 x2 x3 xs).1)

end

end

theorem hc1_first : cond1 (grid1.coords t0_1) := (hcond1 t0_1).mpr rfl

def scr1 (c : Dev nD) : Vec F S10000x128 .bf16 :=
  sout1_A c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) hc1_first (iblk1 V c 0 t0_1) (iblk1 V c 1 t0_1) (iblk1 V c 2 t0_1) (iblk1 V c 3 t0_1)

def outAt1 (c : Dev nD) (t : Fin cfg1.N) : Vec F S400x128 .f32 :=
  if h : t.val = 0 then
    out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h) (iblk1 V c 0 t) (iblk1 V c 1 t) (iblk1 V c 2 t) (iblk1 V c 3 t)
  else
    out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (scr1 V c)

theorem outAt1_first (c : Dev nD) (t : Fin cfg1.N) (h : t.val = 0) :
    outAt1 V c t = out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h) (iblk1 V c 0 t) (iblk1 V c 1 t) (iblk1 V c 2 t) (iblk1 V c 3 t) := dif_pos h

theorem outAt1_later (c : Dev nD) (t : Fin cfg1.N) (h : ¬t.val = 0) :
    outAt1 V c t = out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (scr1 V c) := dif_neg h

def PhiS1 (c : Dev nD) : sProp 𝕄 :=
  iprop(iprop(owns (c : Thread nD τ) scM1 fullShare (scr1 V c) ∗ Pipeline.scopedRestBut (Ix := Unit) (Name := ℕ) (U := UR sig nD τ) (Lvl := ℕ) (Val := Elt F) spec1 c [cc1_scratch0]) ∗ (∃ r, prngReg c r))

def Phi1 (c : Dev nD) (n : ℕ) : sProp 𝕄 := if n = 0 then Pipeline.ΦA spec1 c else PhiS1 V c

theorem Phi1_zero (c : Dev nD) : Phi1 V c 0 = Pipeline.ΦA spec1 c := if_pos rfl
theorem Phi1_pos (c : Dev nD) (n : ℕ) (hn : n ≠ 0) : Phi1 V c n = PhiS1 V c := if_neg hn

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    Phi1_pos V c (t.val + 1) (Nat.succ_ne_zero _),
    after1_0, after1_1, after1_2, after1_3, after1_4]
  unfold PhiS1
  by_cases hz : t.val = 0
  · obtain rfl : t = t0_1 := Fin.ext hz
    rw [outAt1_first V c t0_1 rfl, show Phi1 V c (t0_1 : Fin cfg1.N).val = Pipeline.ΦA spec1 c from Phi1_zero V c, PhiA1_eq]
    unfold out1_A scr1 sout1_A
    iintro ⟨⟨⟨HS, HR⟩, Hg⟩, Ho, ⟨%d0, H0⟩, ⟨%d1, H1⟩, ⟨%d2, H2⟩, ⟨%d3, H3⟩, ⟨%d4, H4⟩⟩
    iapply ((kernelRun1_A c (grid1.coords t0_1) _ _ _ _ _ _ _ _ _ _ _ _ hc1_first (iblk1 V c 0 t0_1) (iblk1 V c 1 t0_1) (iblk1 V c 2 t0_1) (iblk1 V c 3 t0_1)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover1_A c _ _ _ _ _ _ _ _ _ _ _ _ _ _ _ _ _ _)
    iexists _; isplitr
    swap; · iexact H4
    ipureintro; exact View.read_writes_of_cover _ _ _ _ _ (cover1_A c _ _ _ _ _ _ _ _ _ _ _ _ _ _ _ _ _ _)
  · rw [outAt1_later V c t hz, Phi1_pos V c t.val hz]
    unfold out1_B PhiS1
    iintro ⟨⟨⟨HS, HR⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun hc => hz ((hcond1 t).mp hc)) (iblk1 V c 0 t) (iblk1 V c 1 t) (iblk1 V c 2 t) (iblk1 V c 3 t) (scr1 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover1_B c _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 from rfl, Phi1_zero]
  try exact Idealize.SL.BI.Entails.refl _

theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 25 := N_1; omega), PhiA1_eq]
  unfold PhiS1
  iintro ⟨⟨HS, HR⟩, Hg⟩
  iframe HR Hg
  iexists _; iexact HS

end Cert.KernelIdeal.Hand

end
-- ==== Proof.KI.Region2Run.lean ====
import proofs.«136297_g53695681135103_cont_9to1c4b_48_2_alg».proof.Proof.Gen.KernelIdeal.Launch
import proofs.«136297_g53695681135103_cont_9to1c4b_48_2_alg».proof.Proof.Gen.KernelIdeal.Skeleton
import proofs.«136297_g53695681135103_cont_9to1c4b_48_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S400x10000 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S400x128 .f32 := win2_4.stage (cfg2.slots t 4)
abbrev hs2_4 (t : Fin cfg2.N) : (ms2_4 t).IsWhole := hstage2_4 ((cfg2.slots t 4).cast nbuf2_4)
abbrev scM2 : Memref sig .tc .vmem S10000x128 .bf16 := Memref.whole cc2_scratch0
abbrev VO2 : View sig .tc .vmem S400x128 .f32 := (Memref.whole cc2_stg4_0 : Memref sig .tc .vmem S400x128 .f32).view
abbrev VS2 : View sig .tc .vmem S10000x128 .bf16 := scM2.view

abbrev t0_2 : Fin cfg2.N := ⟨0, by decide⟩

theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid2.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun2_A (hc0 : cond2 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc2__layer_body i arg1 harg1 arg2 harg2 arg3 harg3 arg4 harg4 arg5 harg5 arg6 harg6) K } :=
  ⟨_, _, fun E K => by
    simp (disch := assumption) only [cc2__layer_body_eq_skeleton, owns_unread]
    unfold cc2__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun2_B (hc0 : ¬cond2 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc2__layer_body i arg1 harg1 arg2 harg2 arg3 harg3 arg4 harg4 arg5 harg5 arg6 harg6) K } :=
  ⟨_, fun E K => by
    simp (disch := assumption) only [cc2__layer_body_eq_skeleton, owns_unread]
    unfold cc2__layer_body_skel
    iintro ⟨H0, H1, H2, H3, ⟨%d4, H4⟩, HS, Hk⟩
    sl_exec (disch := exact hc0)
    sl_step
    iapply Hk
    iframe
    iexists _; iexact H4⟩

end

end Cert.KernelIdeal.Hand

end
-- ==== Proof.KI.Region2.lean ====
import proofs.«136297_g53695681135103_cont_9to1c4b_48_2_alg».proof.Proof.KI.Region2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid2.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond2 i) (x0 : Vec F S10000x128 .f32) (x1 : Vec F S128x128 .f32) (x2 : Vec F S1x128 .f32) (x3 : Vec F S400x10000 .bf16)

theorem cover2_A (y : S400x128.Idx) :
    ∃ pc ∈ (kernelRun2_A c i arg1 harg1 arg2 harg2 arg3 harg3 arg4 harg4 arg5 harg5 arg6 harg6 hc0 x0 x1 x2 x3).1, y ∈ pc.1.set :=
  View.cover_of_tiledL (kernelRun2_A c i arg1 harg1 arg2 harg2 arg3 harg3 arg4 harg4 arg5 harg5 arg6 harg6 hc0 x0 x1 x2 x3).1 S400x128.size (by sl_kernel_rfl) y

def out2_A : Vec F S400x128 .f32 :=
  VO2.read (Elt F) (VO2.writes (Elt F) VO2.junk (kernelRun2_A c i arg1 harg1 arg2 harg2 arg3 harg3 arg4 harg4 arg5 harg5 arg6 harg6 hc0 x0 x1 x2 x3).1)

theorem scover2_A (y : S10000x128.Idx) :
    ∃ pc ∈ (kernelRun2_A c i arg1 harg1 arg2 harg2 arg3 harg3 arg4 harg4 arg5 harg5 arg6 harg6 hc0 x0 x1 x2 x3).2.1, y ∈ pc.1.set :=
  View.cover_of_tiledL (kernelRun2_A c i arg1 harg1 arg2 harg2 arg3 harg3 arg4 harg4 arg5 harg5 arg6 harg6 hc0 x0 x1 x2 x3).2.1 S10000x128.size (by sl_kernel_rfl) y

def sout2_A : Vec F S10000x128 .bf16 :=
  VS2.read (Elt F) (VS2.writes (Elt F) VS2.junk (kernelRun2_A c i arg1 harg1 arg2 harg2 arg3 harg3 arg4 harg4 arg5 harg5 arg6 harg6 hc0 x0 x1 x2 x3).2.1)

end

section

variable (hc0 : ¬cond2 i) (x0 : Vec F S10000x128 .f32) (x1 : Vec F S128x128 .f32) (x2 : Vec F S1x128 .f32) (x3 : Vec F S400x10000 .bf16) (xs : Vec F S10000x128 .bf16)

theorem cover2_B (y : S400x128.Idx) :
    ∃ pc ∈ (kernelRun2_B c i arg1 harg1 arg2 harg2 arg3 harg3 arg4 harg4 arg5 harg5 arg6 harg6 hc0 x0 x1 x2 x3 xs).1, y ∈ pc.1.set :=
  View.cover_of_tiledL (kernelRun2_B c i arg1 harg1 arg2 harg2 arg3 harg3 arg4 harg4 arg5 harg5 arg6 harg6 hc0 x0 x1 x2 x3 xs).1 S400x128.size (by sl_kernel_rfl) y

def out2_B : Vec F S400x128 .f32 :=
  VO2.read (Elt F) (VO2.writes (Elt F) VO2.junk (kernelRun2_B c i arg1 harg1 arg2 harg2 arg3 harg3 arg4 harg4 arg5 harg5 arg6 harg6 hc0 x0 x1 x2 x3 xs).1)

end

end

theorem hc2_first : cond2 (grid2.coords t0_2) := (hcond2 t0_2).mpr rfl

def scr2 (c : Dev nD) : Vec F S10000x128 .bf16 :=
  sout2_A c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) scM2 (Memref.isWhole_whole _) hc2_first (iblk2 V c 0 t0_2) (iblk2 V c 1 t0_2) (iblk2 V c 2 t0_2) (iblk2 V c 3 t0_2)

def outAt2 (c : Dev nD) (t : Fin cfg2.N) : Vec F S400x128 .f32 :=
  if h : t.val = 0 then
    out2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h) (iblk2 V c 0 t) (iblk2 V c 1 t) (iblk2 V c 2 t) (iblk2 V c 3 t)
  else
    out2_B c (grid2.coords t) (ms2_0 t) (hs2_0 t) (ms2_1 t) (hs2_1 t) (ms2_2 t) (hs2_2 t) (ms2_3 t) (hs2_3 t) (ms2_4 t) (hs2_4 t) scM2 (Memref.isWhole_whole _) (fun hc => h ((hcond2 t).mp hc)) (iblk2 V c 0 t) (iblk2 V c 1 t) (iblk2 V c 2 t) (iblk2 V c 3 t) (scr2 V c)

theorem outAt2_first (c : Dev nD) (t : Fin cfg2.N) (h : t.val = 0) :
    outAt2 V c t = out2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h) (iblk2 V c 0 t) (iblk2 V c 1 t) (iblk2 V c 2 t) (iblk2 V c 3 t) := dif_pos h

theorem outAt2_later (c : Dev nD) (t : Fin cfg2.N) (h : ¬t.val = 0) :
    outAt2 V c t = out2_B c (grid2.coords t) (ms2_0 t) (hs2_0 t) (ms2_1 t) (hs2_1 t) (ms2_2 t) (hs2_2 t) (ms2_3 t) (hs2_3 t) (ms2_4 t) (hs2_4 t) scM2 (Memref.isWhole_whole _) (fun hc => h ((hcond2 t).mp hc)) (iblk2 V c 0 t) (iblk2 V c 1 t) (iblk2 V c 2 t) (iblk2 V c 3 t) (scr2 V c) := dif_neg h

def PhiS2 (c : Dev nD) : sProp 𝕄 :=
  iprop(iprop(owns (c : Thread nD τ) scM2 fullShare (scr2 V c) ∗ Pipeline.scopedRestBut (Ix := Unit) (Name := ℕ) (U := UR sig nD τ) (Lvl := ℕ) (Val := Elt F) spec2 c [cc2_scratch0]) ∗ (∃ r, prngReg c r))

def Phi2 (c : Dev nD) (n : ℕ) : sProp 𝕄 := if n = 0 then Pipeline.ΦA spec2 c else PhiS2 V c

theorem Phi2_zero (c : Dev nD) : Phi2 V c 0 = Pipeline.ΦA spec2 c := if_pos rfl
theorem Phi2_pos (c : Dev nD) (n : ℕ) (hn : n ≠ 0) : Phi2 V c n = PhiS2 V c := if_neg hn

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = Phi2 V c (t.val + 1) from rfl,
    show (dat2 V c).Φ t.castSucc = Phi2 V c t.val from rfl,
    Phi2_pos V c (t.val + 1) (Nat.succ_ne_zero _),
    after2_0, after2_1, after2_2, after2_3, after2_4]
  unfold PhiS2
  by_cases hz : t.val = 0
  · obtain rfl : t = t0_2 := Fin.ext hz
    rw [outAt2_first V c t0_2 rfl, show Phi2 V c (t0_2 : Fin cfg2.N).val = Pipeline.ΦA spec2 c from Phi2_zero V c, PhiA2_eq]
    unfold out2_A scr2 sout2_A
    iintro ⟨⟨⟨HS, HR⟩, Hg⟩, Ho, ⟨%d0, H0⟩, ⟨%d1, H1⟩, ⟨%d2, H2⟩, ⟨%d3, H3⟩, ⟨%d4, H4⟩⟩
    iapply ((kernelRun2_A c (grid2.coords t0_2) _ _ _ _ _ _ _ _ _ _ _ _ hc2_first (iblk2 V c 0 t0_2) (iblk2 V c 1 t0_2) (iblk2 V c 2 t0_2) (iblk2 V c 3 t0_2)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover2_A c _ _ _ _ _ _ _ _ _ _ _ _ _ _ _ _ _ _)
    iexists _; isplitr
    swap; · iexact H4
    ipureintro; exact View.read_writes_of_cover _ _ _ _ _ (cover2_A c _ _ _ _ _ _ _ _ _ _ _ _ _ _ _ _ _ _)
  · rw [outAt2_later V c t hz, Phi2_pos V c t.val hz]
    unfold out2_B PhiS2
    iintro ⟨⟨⟨HS, HR⟩, Hg⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ (fun hc => hz ((hcond2 t).mp hc)) (iblk2 V c 0 t) (iblk2 V c 1 t) (iblk2 V c 2 t) (iblk2 V c 3 t) (scr2 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover2_B c _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Phi2 V c 0 from rfl, Phi2_zero]
  try exact Idealize.SL.BI.Entails.refl _

theorem hout2 (c : Dev nD) : (dat2 V c).Φ (Fin.last cfg2.N) ⊢ Pipeline.ΦA spec2 c := by
  rw [show (dat2 V c).Φ (Fin.last cfg2.N) = Phi2 V c (Fin.last cfg2.N).val from rfl,
    Phi2_pos V c _ (by rw [Fin.val_last]; have : cfg2.N = 25 := N_2; omega), PhiA2_eq]
  unfold PhiS2
  iintro ⟨⟨HS, HR⟩, Hg⟩
  iframe HR Hg
  iexists _; iexact HS

end Cert.KernelIdeal.Hand

end
-- ==== Proof.KI.Region3Run.lean ====
import proofs.«136297_g53695681135103_cont_9to1c4b_48_2_alg».proof.Proof.Gen.KernelIdeal.Launch
import proofs.«136297_g53695681135103_cont_9to1c4b_48_2_alg».proof.Proof.Gen.KernelIdeal.Skeleton
import proofs.«136297_g53695681135103_cont_9to1c4b_48_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3 (i : grid3.Coords) : Prop := (Scalar.cmpi .ne (Scalar.extui (Scalar.cmpi .eq (BitVec.ofNat 32 (i 0).val) 0#32)) 0#32) = 1#1
theorem hcond3 : ∀ t : Fin cfg3.N, cond3 (grid3.coords t) ↔ t.val = 0 :=
  (by decide +kernel : ∀ t : Fin grid3.N, cond3 (grid3.coords t) ↔ t.val = 0)

abbrev ms3_0 (t : Fin cfg3.N) : Memref sig .tc .vmem S10000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S400x10000 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S400x128 .f32 := win3_4.stage (cfg3.slots t 4)
abbrev hs3_4 (t : Fin cfg3.N) : (ms3_4 t).IsWhole := hstage3_4 ((cfg3.slots t 4).cast nbuf3_4)
abbrev scM3 : Memref sig .tc .vmem S10000x128 .bf16 := Memref.whole cc3_scratch0
abbrev VO3 : View sig .tc .vmem S400x128 .f32 := (Memref.whole cc3_stg4_0 : Memref sig .tc .vmem S400x128 .f32).view
abbrev VS3 : View sig .tc .vmem S10000x128 .bf16 := scM3.view

abbrev t0_3 : Fin cfg3.N := ⟨0, by decide⟩

theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid3.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun3_A (hc0 : cond3 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc3__layer_body i arg1 harg1 arg2 harg2 arg3 harg3 arg4 harg4 arg5 harg5 arg6 harg6) K } :=
  ⟨_, _, fun E K => by
    simp (disch := assumption) only [cc3__layer_body_eq_skeleton, owns_unread]
    unfold cc3__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun3_B (hc0 : ¬cond3 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc3__layer_body i arg1 harg1 arg2 harg2 arg3 harg3 arg4 harg4 arg5 harg5 arg6 harg6) K } :=
  ⟨_, fun E K => by
    simp (disch := assumption) only [cc3__layer_body_eq_skeleton, owns_unread]
    unfold cc3__layer_body_skel
    iintro ⟨H0, H1, H2, H3, ⟨%d4, H4⟩, HS, Hk⟩
    sl_exec (disch := exact hc0)
    sl_step
    iapply Hk
    iframe
    iexists _; iexact H4⟩

end

end Cert.KernelIdeal.Hand

end
-- ==== Proof.KI.Region3.lean ====
import proofs.«136297_g53695681135103_cont_9to1c4b_48_2_alg».proof.Proof.KI.Region3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid3.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond3 i) (x0 : Vec F S10000x128 .f32) (x1 : Vec F S128x128 .f32) (x2 : Vec F S1x128 .f32) (x3 : Vec F S400x10000 .bf16)

theorem cover3_A (y : S400x128.Idx) :
    ∃ pc ∈ (kernelRun3_A c i arg1 harg1 arg2 harg2 arg3 harg3 arg4 harg4 arg5 harg5 arg6 harg6 hc0 x0 x1 x2 x3).1, y ∈ pc.1.set :=
  View.cover_of_tiledL (kernelRun3_A c i arg1 harg1 arg2 harg2 arg3 harg3 arg4 harg4 arg5 harg5 arg6 harg6 hc0 x0 x1 x2 x3).1 S400x128.size (by sl_kernel_rfl) y

def out3_A : Vec F S400x128 .f32 :=
  VO3.read (Elt F) (VO3.writes (Elt F) VO3.junk (kernelRun3_A c i arg1 harg1 arg2 harg2 arg3 harg3 arg4 harg4 arg5 harg5 arg6 harg6 hc0 x0 x1 x2 x3).1)

theorem scover3_A (y : S10000x128.Idx) :
    ∃ pc ∈ (kernelRun3_A c i arg1 harg1 arg2 harg2 arg3 harg3 arg4 harg4 arg5 harg5 arg6 harg6 hc0 x0 x1 x2 x3).2.1, y ∈ pc.1.set :=
  View.cover_of_tiledL (kernelRun3_A c i arg1 harg1 arg2 harg2 arg3 harg3 arg4 harg4 arg5 harg5 arg6 harg6 hc0 x0 x1 x2 x3).2.1 S10000x128.size (by sl_kernel_rfl) y

def sout3_A : Vec F S10000x128 .bf16 :=
  VS3.read (Elt F) (VS3.writes (Elt F) VS3.junk (kernelRun3_A c i arg1 harg1 arg2 harg2 arg3 harg3 arg4 harg4 arg5 harg5 arg6 harg6 hc0 x0 x1 x2 x3).2.1)

end

section

variable (hc0 : ¬cond3 i) (x0 : Vec F S10000x128 .f32) (x1 : Vec F S128x128 .f32) (x2 : Vec F S1x128 .f32) (x3 : Vec F S400x10000 .bf16) (xs : Vec F S10000x128 .bf16)

theorem cover3_B (y : S400x128.Idx) :
    ∃ pc ∈ (kernelRun3_B c i arg1 harg1 arg2 harg2 arg3 harg3 arg4 harg4 arg5 harg5 arg6 harg6 hc0 x0 x1 x2 x3 xs).1, y ∈ pc.1.set :=
  View.cover_of_tiledL (kernelRun3_B c i arg1 harg1 arg2 harg2 arg3 harg3 arg4 harg4 arg5 harg5 arg6 harg6 hc0 x0 x1 x2 x3 xs).1 S400x128.size (by sl_kernel_rfl) y

def out3_B : Vec F S400x128 .f32 :=
  VO3.read (Elt F) (VO3.writes (Elt F) VO3.junk (kernelRun3_B c i arg1 harg1 arg2 harg2 arg3 harg3 arg4 harg4 arg5 harg5 arg6 harg6 hc0 x0 x1 x2 x3 xs).1)

end

end

theorem hc3_first : cond3 (grid3.coords t0_3) := (hcond3 t0_3).mpr rfl

def scr3 (c : Dev nD) : Vec F S10000x128 .bf16 :=
  sout3_A c (grid3.coords t0_3) (ms3_0 t0_3) (hs3_0 t0_3) (ms3_1 t0_3) (hs3_1 t0_3) (ms3_2 t0_3) (hs3_2 t0_3) (ms3_3 t0_3) (hs3_3 t0_3) (ms3_4 t0_3) (hs3_4 t0_3) scM3 (Memref.isWhole_whole _) hc3_first (iblk3 V c 0 t0_3) (iblk3 V c 1 t0_3) (iblk3 V c 2 t0_3) (iblk3 V c 3 t0_3)

def outAt3 (c : Dev nD) (t : Fin cfg3.N) : Vec F S400x128 .f32 :=
  if h : t.val = 0 then
    out3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3 t).mpr h) (iblk3 V c 0 t) (iblk3 V c 1 t) (iblk3 V c 2 t) (iblk3 V c 3 t)
  else
    out3_B c (grid3.coords t) (ms3_0 t) (hs3_0 t) (ms3_1 t) (hs3_1 t) (ms3_2 t) (hs3_2 t) (ms3_3 t) (hs3_3 t) (ms3_4 t) (hs3_4 t) scM3 (Memref.isWhole_whole _) (fun hc => h ((hcond3 t).mp hc)) (iblk3 V c 0 t) (iblk3 V c 1 t) (iblk3 V c 2 t) (iblk3 V c 3 t) (scr3 V c)

theorem outAt3_first (c : Dev nD) (t : Fin cfg3.N) (h : t.val = 0) :
    outAt3 V c t = out3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3 t).mpr h) (iblk3 V c 0 t) (iblk3 V c 1 t) (iblk3 V c 2 t) (iblk3 V c 3 t) := dif_pos h

theorem outAt3_later (c : Dev nD) (t : Fin cfg3.N) (h : ¬t.val = 0) :
    outAt3 V c t = out3_B c (grid3.coords t) (ms3_0 t) (hs3_0 t) (ms3_1 t) (hs3_1 t) (ms3_2 t) (hs3_2 t) (ms3_3 t) (hs3_3 t) (ms3_4 t) (hs3_4 t) scM3 (Memref.isWhole_whole _) (fun hc => h ((hcond3 t).mp hc)) (iblk3 V c 0 t) (iblk3 V c 1 t) (iblk3 V c 2 t) (iblk3 V c 3 t) (scr3 V c) := dif_neg h

def PhiS3 (c : Dev nD) : sProp 𝕄 :=
  iprop(iprop(owns (c : Thread nD τ) scM3 fullShare (scr3 V c) ∗ Pipeline.scopedRestBut (Ix := Unit) (Name := ℕ) (U := UR sig nD τ) (Lvl := ℕ) (Val := Elt F) spec3 c [cc3_scratch0]) ∗ (∃ r, prngReg c r))

def Phi3 (c : Dev nD) (n : ℕ) : sProp 𝕄 := if n = 0 then Pipeline.ΦA spec3 c else PhiS3 V c

theorem Phi3_zero (c : Dev nD) : Phi3 V c 0 = Pipeline.ΦA spec3 c := if_pos rfl
theorem Phi3_pos (c : Dev nD) (n : ℕ) (hn : n ≠ 0) : Phi3 V c n = PhiS3 V c := if_neg hn

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = Phi3 V c (t.val + 1) from rfl,
    show (dat3 V c).Φ t.castSucc = Phi3 V c t.val from rfl,
    Phi3_pos V c (t.val + 1) (Nat.succ_ne_zero _),
    after3_0, after3_1, after3_2, after3_3, after3_4]
  unfold PhiS3
  by_cases hz : t.val = 0
  · obtain rfl : t = t0_3 := Fin.ext hz
    rw [outAt3_first V c t0_3 rfl, show Phi3 V c (t0_3 : Fin cfg3.N).val = Pipeline.ΦA spec3 c from Phi3_zero V c, PhiA3_eq]
    unfold out3_A scr3 sout3_A
    iintro ⟨⟨⟨HS, HR⟩, Hg⟩, Ho, ⟨%d0, H0⟩, ⟨%d1, H1⟩, ⟨%d2, H2⟩, ⟨%d3, H3⟩, ⟨%d4, H4⟩⟩
    iapply ((kernelRun3_A c (grid3.coords t0_3) _ _ _ _ _ _ _ _ _ _ _ _ hc3_first (iblk3 V c 0 t0_3) (iblk3 V c 1 t0_3) (iblk3 V c 2 t0_3) (iblk3 V c 3 t0_3)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover3_A c _ _ _ _ _ _ _ _ _ _ _ _ _ _ _ _ _ _)
    iexists _; isplitr
    swap; · iexact H4
    ipureintro; exact View.read_writes_of_cover _ _ _ _ _ (cover3_A c _ _ _ _ _ _ _ _ _ _ _ _ _ _ _ _ _ _)
  · rw [outAt3_later V c t hz, Phi3_pos V c t.val hz]
    unfold out3_B PhiS3
    iintro ⟨⟨⟨HS, HR⟩, Hg⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ (fun hc => hz ((hcond3 t).mp hc)) (iblk3 V c 0 t) (iblk3 V c 1 t) (iblk3 V c 2 t) (iblk3 V c 3 t) (scr3 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover3_B c _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Phi3 V c 0 from rfl, Phi3_zero]
  try exact Idealize.SL.BI.Entails.refl _

theorem hout3 (c : Dev nD) : (dat3 V c).Φ (Fin.last cfg3.N) ⊢ Pipeline.ΦA spec3 c := by
  rw [show (dat3 V c).Φ (Fin.last cfg3.N) = Phi3 V c (Fin.last cfg3.N).val from rfl,
    Phi3_pos V c _ (by rw [Fin.val_last]; have : cfg3.N = 25 := N_3; omega), PhiA3_eq]
  unfold PhiS3
  iintro ⟨⟨HS, HR⟩, Hg⟩
  iframe HR Hg
  iexists _; iexact HS

end Cert.KernelIdeal.Hand

end
-- ==== Proof.KI.Region4Run.lean ====
import proofs.«136297_g53695681135103_cont_9to1c4b_48_2_alg».proof.Proof.Gen.KernelIdeal.Launch
import proofs.«136297_g53695681135103_cont_9to1c4b_48_2_alg».proof.Proof.Gen.KernelIdeal.Skeleton
import proofs.«136297_g53695681135103_cont_9to1c4b_48_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4 (i : grid4.Coords) : Prop := (Scalar.cmpi .ne (Scalar.extui (Scalar.cmpi .eq (BitVec.ofNat 32 (i 0).val) 0#32)) 0#32) = 1#1
theorem hcond4 : ∀ t : Fin cfg4.N, cond4 (grid4.coords t) ↔ t.val = 0 :=
  (by decide +kernel : ∀ t : Fin grid4.N, cond4 (grid4.coords t) ↔ t.val = 0)

abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S400x10000 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S400x128 .f32 := win4_4.stage (cfg4.slots t 4)
abbrev hs4_4 (t : Fin cfg4.N) : (ms4_4 t).IsWhole := hstage4_4 ((cfg4.slots t 4).cast nbuf4_4)
abbrev scM4 : Memref sig .tc .vmem S10000x128 .bf16 := Memref.whole cc4_scratch0
abbrev VO4 : View sig .tc .vmem S400x128 .f32 := (Memref.whole cc4_stg4_0 : Memref sig .tc .vmem S400x128 .f32).view
abbrev VS4 : View sig .tc .vmem S10000x128 .bf16 := scM4.view

abbrev t0_4 : Fin cfg4.N := ⟨0, by decide⟩

theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid4.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun4_A (hc0 : cond4 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc4__layer_body i arg1 harg1 arg2 harg2 arg3 harg3 arg4 harg4 arg5 harg5 arg6 harg6) K } :=
  ⟨_, _, fun E K => by
    simp (disch := assumption) only [cc4__layer_body_eq_skeleton, owns_unread]
    unfold cc4__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun4_B (hc0 : ¬cond4 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc4__layer_body i arg1 harg1 arg2 harg2 arg3 harg3 arg4 harg4 arg5 harg5 arg6 harg6) K } :=
  ⟨_, fun E K => by
    simp (disch := assumption) only [cc4__layer_body_eq_skeleton, owns_unread]
    unfold cc4__layer_body_skel
    iintro ⟨H0, H1, H2, H3, ⟨%d4, H4⟩, HS, Hk⟩
    sl_exec (disch := exact hc0)
    sl_step
    iapply Hk
    iframe
    iexists _; iexact H4⟩

end

end Cert.KernelIdeal.Hand

end
-- ==== Proof.KI.Region4.lean ====
import proofs.«136297_g53695681135103_cont_9to1c4b_48_2_alg».proof.Proof.KI.Region4Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid4.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond4 i) (x0 : Vec F S10000x128 .f32) (x1 : Vec F S128x128 .f32) (x2 : Vec F S1x128 .f32) (x3 : Vec F S400x10000 .bf16)

theorem cover4_A (y : S400x128.Idx) :
    ∃ pc ∈ (kernelRun4_A c i arg1 harg1 arg2 harg2 arg3 harg3 arg4 harg4 arg5 harg5 arg6 harg6 hc0 x0 x1 x2 x3).1, y ∈ pc.1.set :=
  View.cover_of_tiledL (kernelRun4_A c i arg1 harg1 arg2 harg2 arg3 harg3 arg4 harg4 arg5 harg5 arg6 harg6 hc0 x0 x1 x2 x3).1 S400x128.size (by sl_kernel_rfl) y

def out4_A : Vec F S400x128 .f32 :=
  VO4.read (Elt F) (VO4.writes (Elt F) VO4.junk (kernelRun4_A c i arg1 harg1 arg2 harg2 arg3 harg3 arg4 harg4 arg5 harg5 arg6 harg6 hc0 x0 x1 x2 x3).1)

theorem scover4_A (y : S10000x128.Idx) :
    ∃ pc ∈ (kernelRun4_A c i arg1 harg1 arg2 harg2 arg3 harg3 arg4 harg4 arg5 harg5 arg6 harg6 hc0 x0 x1 x2 x3).2.1, y ∈ pc.1.set :=
  View.cover_of_tiledL (kernelRun4_A c i arg1 harg1 arg2 harg2 arg3 harg3 arg4 harg4 arg5 harg5 arg6 harg6 hc0 x0 x1 x2 x3).2.1 S10000x128.size (by sl_kernel_rfl) y

def sout4_A : Vec F S10000x128 .bf16 :=
  VS4.read (Elt F) (VS4.writes (Elt F) VS4.junk (kernelRun4_A c i arg1 harg1 arg2 harg2 arg3 harg3 arg4 harg4 arg5 harg5 arg6 harg6 hc0 x0 x1 x2 x3).2.1)

end

section

variable (hc0 : ¬cond4 i) (x0 : Vec F S10000x128 .f32) (x1 : Vec F S128x128 .f32) (x2 : Vec F S1x128 .f32) (x3 : Vec F S400x10000 .bf16) (xs : Vec F S10000x128 .bf16)

theorem cover4_B (y : S400x128.Idx) :
    ∃ pc ∈ (kernelRun4_B c i arg1 harg1 arg2 harg2 arg3 harg3 arg4 harg4 arg5 harg5 arg6 harg6 hc0 x0 x1 x2 x3 xs).1, y ∈ pc.1.set :=
  View.cover_of_tiledL (kernelRun4_B c i arg1 harg1 arg2 harg2 arg3 harg3 arg4 harg4 arg5 harg5 arg6 harg6 hc0 x0 x1 x2 x3 xs).1 S400x128.size (by sl_kernel_rfl) y

def out4_B : Vec F S400x128 .f32 :=
  VO4.read (Elt F) (VO4.writes (Elt F) VO4.junk (kernelRun4_B c i arg1 harg1 arg2 harg2 arg3 harg3 arg4 harg4 arg5 harg5 arg6 harg6 hc0 x0 x1 x2 x3 xs).1)

end

end

theorem hc4_first : cond4 (grid4.coords t0_4) := (hcond4 t0_4).mpr rfl

def scr4 (c : Dev nD) : Vec F S10000x128 .bf16 :=
  sout4_A c (grid4.coords t0_4) (ms4_0 t0_4) (hs4_0 t0_4) (ms4_1 t0_4) (hs4_1 t0_4) (ms4_2 t0_4) (hs4_2 t0_4) (ms4_3 t0_4) (hs4_3 t0_4) (ms4_4 t0_4) (hs4_4 t0_4) scM4 (Memref.isWhole_whole _) hc4_first (iblk4 V c 0 t0_4) (iblk4 V c 1 t0_4) (iblk4 V c 2 t0_4) (iblk4 V c 3 t0_4)

def outAt4 (c : Dev nD) (t : Fin cfg4.N) : Vec F S400x128 .f32 :=
  if h : t.val = 0 then
    out4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcond4 t).mpr h) (iblk4 V c 0 t) (iblk4 V c 1 t) (iblk4 V c 2 t) (iblk4 V c 3 t)
  else
    out4_B c (grid4.coords t) (ms4_0 t) (hs4_0 t) (ms4_1 t) (hs4_1 t) (ms4_2 t) (hs4_2 t) (ms4_3 t) (hs4_3 t) (ms4_4 t) (hs4_4 t) scM4 (Memref.isWhole_whole _) (fun hc => h ((hcond4 t).mp hc)) (iblk4 V c 0 t) (iblk4 V c 1 t) (iblk4 V c 2 t) (iblk4 V c 3 t) (scr4 V c)

theorem outAt4_first (c : Dev nD) (t : Fin cfg4.N) (h : t.val = 0) :
    outAt4 V c t = out4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcond4 t).mpr h) (iblk4 V c 0 t) (iblk4 V c 1 t) (iblk4 V c 2 t) (iblk4 V c 3 t) := dif_pos h

theorem outAt4_later (c : Dev nD) (t : Fin cfg4.N) (h : ¬t.val = 0) :
    outAt4 V c t = out4_B c (grid4.coords t) (ms4_0 t) (hs4_0 t) (ms4_1 t) (hs4_1 t) (ms4_2 t) (hs4_2 t) (ms4_3 t) (hs4_3 t) (ms4_4 t) (hs4_4 t) scM4 (Memref.isWhole_whole _) (fun hc => h ((hcond4 t).mp hc)) (iblk4 V c 0 t) (iblk4 V c 1 t) (iblk4 V c 2 t) (iblk4 V c 3 t) (scr4 V c) := dif_neg h

def PhiS4 (c : Dev nD) : sProp 𝕄 :=
  iprop(iprop(owns (c : Thread nD τ) scM4 fullShare (scr4 V c) ∗ Pipeline.scopedRestBut (Ix := Unit) (Name := ℕ) (U := UR sig nD τ) (Lvl := ℕ) (Val := Elt F) spec4 c [cc4_scratch0]) ∗ (∃ r, prngReg c r))

def Phi4 (c : Dev nD) (n : ℕ) : sProp 𝕄 := if n = 0 then Pipeline.ΦA spec4 c else PhiS4 V c

theorem Phi4_zero (c : Dev nD) : Phi4 V c 0 = Pipeline.ΦA spec4 c := if_pos rfl
theorem Phi4_pos (c : Dev nD) (n : ℕ) (hn : n ≠ 0) : Phi4 V c n = PhiS4 V c := if_neg hn

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) from rfl,
    show (dat4 V c).Φ t.castSucc = Phi4 V c t.val from rfl,
    Phi4_pos V c (t.val + 1) (Nat.succ_ne_zero _),
    after4_0, after4_1, after4_2, after4_3, after4_4]
  unfold PhiS4
  by_cases hz : t.val = 0
  · obtain rfl : t = t0_4 := Fin.ext hz
    rw [outAt4_first V c t0_4 rfl, show Phi4 V c (t0_4 : Fin cfg4.N).val = Pipeline.ΦA spec4 c from Phi4_zero V c, PhiA4_eq]
    unfold out4_A scr4 sout4_A
    iintro ⟨⟨⟨HS, HR⟩, Hg⟩, Ho, ⟨%d0, H0⟩, ⟨%d1, H1⟩, ⟨%d2, H2⟩, ⟨%d3, H3⟩, ⟨%d4, H4⟩⟩
    iapply ((kernelRun4_A c (grid4.coords t0_4) _ _ _ _ _ _ _ _ _ _ _ _ hc4_first (iblk4 V c 0 t0_4) (iblk4 V c 1 t0_4) (iblk4 V c 2 t0_4) (iblk4 V c 3 t0_4)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover4_A c _ _ _ _ _ _ _ _ _ _ _ _ _ _ _ _ _ _)
    iexists _; isplitr
    swap; · iexact H4
    ipureintro; exact View.read_writes_of_cover _ _ _ _ _ (cover4_A c _ _ _ _ _ _ _ _ _ _ _ _ _ _ _ _ _ _)
  · rw [outAt4_later V c t hz, Phi4_pos V c t.val hz]
    unfold out4_B PhiS4
    iintro ⟨⟨⟨HS, HR⟩, Hg⟩, Ho, ⟨%d0, H0⟩, ⟨%d1, H1⟩, ⟨%d2, H2⟩, ⟨%d3, H3⟩, ⟨%d4, H4⟩⟩
    iapply ((kernelRun4_B c (grid4.coords t) _ _ _ _ _ _ _ _ _ _ _ _ (fun hc => hz ((hcond4 t).mp hc)) (iblk4 V c 0 t) (iblk4 V c 1 t) (iblk4 V c 2 t) (iblk4 V c 3 t) (scr4 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover4_B c _ _ _ _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 from rfl, Phi4_zero]
  try exact Idealize.SL.BI.Entails.refl _

theorem hout4 (c : Dev nD) : (dat4 V c).Φ (Fin.last cfg4.N) ⊢ Pipeline.ΦA spec4 c := by
  rw [show (dat4 V c).Φ (Fin.last cfg4.N) = Phi4 V c (Fin.last cfg4.N).val from rfl,
    Phi4_pos V c _ (by rw [Fin.val_last]; have : cfg4.N = 25 := N_4; omega), PhiA4_eq]
  unfold PhiS4
  iintro ⟨⟨HS, HR⟩, Hg⟩
  iframe HR Hg
  iexists _; iexact HS

end Cert.KernelIdeal.Hand

end
-- ==== Proof.KI.Region5Run.lean ====
import proofs.«136297_g53695681135103_cont_9to1c4b_48_2_alg».proof.Proof.Gen.KernelIdeal.Launch
import proofs.«136297_g53695681135103_cont_9to1c4b_48_2_alg».proof.Proof.Gen.KernelIdeal.Skeleton
import proofs.«136297_g53695681135103_cont_9to1c4b_48_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5 (i : grid5.Coords) : Prop := (Scalar.cmpi .ne (Scalar.extui (Scalar.cmpi .eq (BitVec.ofNat 32 (i 0).val) 0#32)) 0#32) = 1#1
theorem hcond5 : ∀ t : Fin cfg5.N, cond5 (grid5.coords t) ↔ t.val = 0 :=
  (by decide +kernel : ∀ t : Fin grid5.N, cond5 (grid5.coords t) ↔ t.val = 0)

abbrev ms5_0 (t : Fin cfg5.N) : Memref sig .tc .vmem S10000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x40 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x40 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S400x10000 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S400x40 .f32 := win5_4.stage (cfg5.slots t 4)
abbrev hs5_4 (t : Fin cfg5.N) : (ms5_4 t).IsWhole := hstage5_4 ((cfg5.slots t 4).cast nbuf5_4)
abbrev scM5 : Memref sig .tc .vmem S10000x40 .bf16 := Memref.whole cc5_scratch0
abbrev VO5 : View sig .tc .vmem S400x40 .f32 := (Memref.whole cc5_stg4_0 : Memref sig .tc .vmem S400x40 .f32).view
abbrev VS5 : View sig .tc .vmem S10000x40 .bf16 := scM5.view

abbrev t0_5 : Fin cfg5.N := ⟨0, by decide⟩

theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid5.Coords)
  (arg1 : Memref sig .tc .vmem S10000x128 .f32) (harg1 : arg1.IsWhole) (arg2 : Memref sig .tc .vmem S128x40 .f32) (harg2 : arg2.IsWhole)
  (arg3 : Memref sig .tc .vmem S1x40 .f32) (harg3 : arg3.IsWhole) (arg4 : Memref sig .tc .vmem S400x10000 .bf16) (harg4 : arg4.IsWhole)
  (arg5 : Memref sig .tc .vmem S400x40 .f32) (harg5 : arg5.IsWhole) (arg6 : Memref sig .tc .vmem S10000x40 .bf16) (harg6 : arg6.IsWhole)

def kernelRun5_A (hc0 : cond5 i)
    (x0 : Vec F S10000x128 .f32) (x1 : Vec F S128x40 .f32) (x2 : Vec F S1x40 .f32) (x3 : Vec F S400x10000 .bf16) :
    Σ' (L4 : List (View.Piece (Elt F) S400x40 .f32)), { LS : List (View.Piece (Elt F) S10000x40 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc5__layer_body i arg1 harg1 arg2 harg2 arg3 harg3 arg4 harg4 arg5 harg5 arg6 harg6) K } :=
  ⟨_, _, fun E K => by
    simp (disch := assumption) only [cc5__layer_body_eq_skeleton, owns_unread]
    unfold cc5__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun5_B (hc0 : ¬cond5 i)
    (x0 : Vec F S10000x128 .f32) (x1 : Vec F S128x40 .f32) (x2 : Vec F S1x40 .f32) (x3 : Vec F S400x10000 .bf16) (xs : Vec F S10000x40 .bf16) :
    { L4 : List (View.Piece (Elt F) S400x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc5__layer_body i arg1 harg1 arg2 harg2 arg3 harg3 arg4 harg4 arg5 harg5 arg6 harg6) K } :=
  ⟨_, fun E K => by
    simp (disch := assumption) only [cc5__layer_body_eq_skeleton, owns_unread]
    unfold cc5__layer_body_skel
    iintro ⟨H0, H1, H2, H3, ⟨%d4, H4⟩, HS, Hk⟩
    sl_exec (disch := exact hc0)
    sl_step
    iapply Hk
    iframe
    iexists _; iexact H4⟩

end

end Cert.KernelIdeal.Hand

end
-- ==== Proof.KI.Region5.lean ====
import proofs.«136297_g53695681135103_cont_9to1c4b_48_2_alg».proof.Proof.KI.Region5Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid5.Coords)
  (arg1 : Memref sig .tc .vmem S10000x128 .f32) (harg1 : arg1.IsWhole) (arg2 : Memref sig .tc .vmem S128x40 .f32) (harg2 : arg2.IsWhole)
  (arg3 : Memref sig .tc .vmem S1x40 .f32) (harg3 : arg3.IsWhole) (arg4 : Memref sig .tc .vmem S400x10000 .bf16) (harg4 : arg4.IsWhole)
  (arg5 : Memref sig .tc .vmem S400x40 .f32) (harg5 : arg5.IsWhole) (arg6 : Memref sig .tc .vmem S10000x40 .bf16) (harg6 : arg6.IsWhole)

section

variable (hc0 : cond5 i) (x0 : Vec F S10000x128 .f32) (x1 : Vec F S128x40 .f32) (x2 : Vec F S1x40 .f32) (x3 : Vec F S400x10000 .bf16)

theorem cover5_A (y : S400x40.Idx) :
    ∃ pc ∈ (kernelRun5_A c i arg1 harg1 arg2 harg2 arg3 harg3 arg4 harg4 arg5 harg5 arg6 harg6 hc0 x0 x1 x2 x3).1, y ∈ pc.1.set :=
  View.cover_of_tiledL (kernelRun5_A c i arg1 harg1 arg2 harg2 arg3 harg3 arg4 harg4 arg5 harg5 arg6 harg6 hc0 x0 x1 x2 x3).1 S400x40.size (by sl_kernel_rfl) y

def out5_A : Vec F S400x40 .f32 :=
  VO5.read (Elt F) (VO5.writes (Elt F) VO5.junk (kernelRun5_A c i arg1 harg1 arg2 harg2 arg3 harg3 arg4 harg4 arg5 harg5 arg6 harg6 hc0 x0 x1 x2 x3).1)

theorem scover5_A (y : S10000x40.Idx) :
    ∃ pc ∈ (kernelRun5_A c i arg1 harg1 arg2 harg2 arg3 harg3 arg4 harg4 arg5 harg5 arg6 harg6 hc0 x0 x1 x2 x3).2.1, y ∈ pc.1.set :=
  View.cover_of_tiledL (kernelRun5_A c i arg1 harg1 arg2 harg2 arg3 harg3 arg4 harg4 arg5 harg5 arg6 harg6 hc0 x0 x1 x2 x3).2.1 S10000x40.size (by sl_kernel_rfl) y

def sout5_A : Vec F S10000x40 .bf16 :=
  VS5.read (Elt F) (VS5.writes (Elt F) VS5.junk (kernelRun5_A c i arg1 harg1 arg2 harg2 arg3 harg3 arg4 harg4 arg5 harg5 arg6 harg6 hc0 x0 x1 x2 x3).2.1)

end

section

variable (hc0 : ¬cond5 i) (x0 : Vec F S10000x128 .f32) (x1 : Vec F S128x40 .f32) (x2 : Vec F S1x40 .f32) (x3 : Vec F S400x10000 .bf16) (xs : Vec F S10000x40 .bf16)

theorem cover5_B (y : S400x40.Idx) :
    ∃ pc ∈ (kernelRun5_B c i arg1 harg1 arg2 harg2 arg3 harg3 arg4 harg4 arg5 harg5 arg6 harg6 hc0 x0 x1 x2 x3 xs).1, y ∈ pc.1.set :=
  View.cover_of_tiledL (kernelRun5_B c i arg1 harg1 arg2 harg2 arg3 harg3 arg4 harg4 arg5 harg5 arg6 harg6 hc0 x0 x1 x2 x3 xs).1 S400x40.size (by sl_kernel_rfl) y

def out5_B : Vec F S400x40 .f32 :=
  VO5.read (Elt F) (VO5.writes (Elt F) VO5.junk (kernelRun5_B c i arg1 harg1 arg2 harg2 arg3 harg3 arg4 harg4 arg5 harg5 arg6 harg6 hc0 x0 x1 x2 x3 xs).1)

end

end

theorem hc5_first : cond5 (grid5.coords t0_5) := (hcond5 t0_5).mpr rfl

def scr5 (c : Dev nD) : Vec F S10000x40 .bf16 :=
  sout5_A c (grid5.coords t0_5) (ms5_0 t0_5) (hs5_0 t0_5) (ms5_1 t0_5) (hs5_1 t0_5) (ms5_2 t0_5) (hs5_2 t0_5) (ms5_3 t0_5) (hs5_3 t0_5) (ms5_4 t0_5) (hs5_4 t0_5) scM5 (Memref.isWhole_whole _) hc5_first (iblk5 V c 0 t0_5) (iblk5 V c 1 t0_5) (iblk5 V c 2 t0_5) (iblk5 V c 3 t0_5)

def outAt5 (c : Dev nD) (t : Fin cfg5.N) : Vec F S400x40 .f32 :=
  if h : t.val = 0 then
    out5_A c (grid5.coords t) (ms5_0 t) (hs5_0 t) (ms5_1 t) (hs5_1 t) (ms5_2 t) (hs5_2 t) (ms5_3 t) (hs5_3 t) (ms5_4 t) (hs5_4 t) scM5 (Memref.isWhole_whole _) ((hcond5 t).mpr h) (iblk5 V c 0 t) (iblk5 V c 1 t) (iblk5 V c 2 t) (iblk5 V c 3 t)
  else
    out5_B c (grid5.coords t) (ms5_0 t) (hs5_0 t) (ms5_1 t) (hs5_1 t) (ms5_2 t) (hs5_2 t) (ms5_3 t) (hs5_3 t) (ms5_4 t) (hs5_4 t) scM5 (Memref.isWhole_whole _) (fun hc => h ((hcond5 t).mp hc)) (iblk5 V c 0 t) (iblk5 V c 1 t) (iblk5 V c 2 t) (iblk5 V c 3 t) (scr5 V c)

theorem outAt5_first (c : Dev nD) (t : Fin cfg5.N) (h : t.val = 0) :
    outAt5 V c t = out5_A c (grid5.coords t) (ms5_0 t) (hs5_0 t) (ms5_1 t) (hs5_1 t) (ms5_2 t) (hs5_2 t) (ms5_3 t) (hs5_3 t) (ms5_4 t) (hs5_4 t) scM5 (Memref.isWhole_whole _) ((hcond5 t).mpr h) (iblk5 V c 0 t) (iblk5 V c 1 t) (iblk5 V c 2 t) (iblk5 V c 3 t) := dif_pos h

theorem outAt5_later (c : Dev nD) (t : Fin cfg5.N) (h : ¬t.val = 0) :
    outAt5 V c t = out5_B c (grid5.coords t) (ms5_0 t) (hs5_0 t) (ms5_1 t) (hs5_1 t) (ms5_2 t) (hs5_2 t) (ms5_3 t) (hs5_3 t) (ms5_4 t) (hs5_4 t) scM5 (Memref.isWhole_whole _) (fun hc => h ((hcond5 t).mp hc)) (iblk5 V c 0 t) (iblk5 V c 1 t) (iblk5 V c 2 t) (iblk5 V c 3 t) (scr5 V c) := dif_neg h

def PhiS5 (c : Dev nD) : sProp 𝕄 :=
  iprop(iprop(owns (c : Thread nD τ) scM5 fullShare (scr5 V c) ∗ Pipeline.scopedRestBut (Ix := Unit) (Name := ℕ) (U := UR sig nD τ) (Lvl := ℕ) (Val := Elt F) spec5 c [cc5_scratch0]) ∗ (∃ r, prngReg c r))

def Phi5 (c : Dev nD) (n : ℕ) : sProp 𝕄 := if n = 0 then Pipeline.ΦA spec5 c else PhiS5 V c

theorem Phi5_zero (c : Dev nD) : Phi5 V c 0 = Pipeline.ΦA spec5 c := if_pos rfl
theorem Phi5_pos (c : Dev nD) (n : ℕ) (hn : n ≠ 0) : Phi5 V c n = PhiS5 V c := if_neg hn

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outAt5 V c t
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = outAt5 V c t := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl,
    show (dat5 V c).Φ t.succ = Phi5 V c (t.val + 1) from rfl,
    show (dat5 V c).Φ t.castSucc = Phi5 V c t.val from rfl,
    Phi5_pos V c (t.val + 1) (Nat.succ_ne_zero _),
    after5_0, after5_1, after5_2, after5_3, after5_4]
  unfold PhiS5
  by_cases hz : t.val = 0
  · obtain rfl : t = t0_5 := Fin.ext hz
    rw [outAt5_first V c t0_5 rfl, show Phi5 V c (t0_5 : Fin cfg5.N).val = Pipeline.ΦA spec5 c from Phi5_zero V c, PhiA5_eq]
    unfold out5_A scr5 sout5_A
    iintro ⟨⟨⟨HS, HR⟩, Hg⟩, Ho, ⟨%d0, H0⟩, ⟨%d1, H1⟩, ⟨%d2, H2⟩, ⟨%d3, H3⟩, ⟨%d4, H4⟩⟩
    iapply ((kernelRun5_A c (grid5.coords t0_5) _ _ _ _ _ _ _ _ _ _ _ _ hc5_first (iblk5 V c 0 t0_5) (iblk5 V c 1 t0_5) (iblk5 V c 2 t0_5) (iblk5 V c 3 t0_5)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover5_A c _ _ _ _ _ _ _ _ _ _ _ _ _ _ _ _ _ _)
    iexists _; isplitr
    swap; · iexact H4
    ipureintro; exact View.read_writes_of_cover _ _ _ _ _ (cover5_A c _ _ _ _ _ _ _ _ _ _ _ _ _ _ _ _ _ _)
  · rw [outAt5_later V c t hz, Phi5_pos V c t.val hz]
    unfold out5_B PhiS5
    iintro ⟨⟨⟨HS, HR⟩, Hg⟩, Ho, ⟨%d0, H0⟩, ⟨%d1, H1⟩, ⟨%d2, H2⟩, ⟨%d3, H3⟩, ⟨%d4, H4⟩⟩
    iapply ((kernelRun5_B c (grid5.coords t) _ _ _ _ _ _ _ _ _ _ _ _ (fun hc => hz ((hcond5 t).mp hc)) (iblk5 V c 0 t) (iblk5 V c 1 t) (iblk5 V c 2 t) (iblk5 V c 3 t) (scr5 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover5_B c _ _ _ _ _ _ _ _ _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = Phi5 V c 0 from rfl, Phi5_zero]
  try exact Idealize.SL.BI.Entails.refl _

theorem hout5 (c : Dev nD) : (dat5 V c).Φ (Fin.last cfg5.N) ⊢ Pipeline.ΦA spec5 c := by
  rw [show (dat5 V c).Φ (Fin.last cfg5.N) = Phi5 V c (Fin.last cfg5.N).val from rfl,
    Phi5_pos V c _ (by rw [Fin.val_last]; have : cfg5.N = 25 := N_5; omega), PhiA5_eq]
  unfold PhiS5
  iintro ⟨⟨HS, HR⟩, Hg⟩
  iframe HR Hg
  iexists _; iexact HS

end Cert.KernelIdeal.Hand

end
-- ==== Proof.KI.RunData.lean ====
import proofs.«136297_g53695681135103_cont_9to1c4b_48_2_alg».proof.Proof.KI.Region0
import proofs.«136297_g53695681135103_cont_9to1c4b_48_2_alg».proof.Proof.KI.Region1
import proofs.«136297_g53695681135103_cont_9to1c4b_48_2_alg».proof.Proof.KI.Region2
import proofs.«136297_g53695681135103_cont_9to1c4b_48_2_alg».proof.Proof.KI.Region3
import proofs.«136297_g53695681135103_cont_9to1c4b_48_2_alg».proof.Proof.KI.Region4
import proofs.«136297_g53695681135103_cont_9to1c4b_48_2_alg».proof.Proof.KI.Region5

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem withArrays_keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w)))
    (o : Fin cfg.W) (ho : ∀ w, w ≠ o → (cfg.spec w).isOut = false) (b : Ref sig .tc) (hb : b ≠ Pipeline.arrRef cfg.spec o) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans ((dat.arrAt_in w (ho w fun e => hb (e ▸ rfl)) _).trans (hA w))
  · exact Pipeline.withArrays_of_ne _ c _ _ b fun w e => h ⟨w, e⟩

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of_ne (c : Dev nD) (b : Ref sig .tc) (h0 : b ≠ main_v0) (h1 : b ≠ main_v1) :
    W1 m ρ c (Proc.devRef .tc b) = W0 m ρ c (Proc.devRef .tc b) :=
  (StableHlo.reshape_result_ne _ _ _ _ _ _ _ h1).trans (StableHlo.unary_result_ne _ _ _ _ _ _ h0)
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_keep (c : Dev nD) (b : Ref sig .tc) (hb : b ≠ Pipeline.arrRef spec0 4) :
    W2 m ρ c (Proc.devRef .tc b) = W1 m ρ c (Proc.devRef .tc b) :=
  withArrays_keep (dat0 (V1 m ρ) c) launch0.win.arr_inj _ (A_eq0 (V1 m ρ) c) 4 (by decide) b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of_ne (c : Dev nD) (b : Ref sig .tc) (h0 : b ≠ main_v3) :
    W3 m ρ c (Proc.devRef .tc b) = W2 m ρ c (Proc.devRef .tc b) :=
  StableHlo.reshape_result_ne _ _ _ _ _ _ _ h0
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_keep (c : Dev nD) (b : Ref sig .tc) (hb : b ≠ Pipeline.arrRef spec1 4) :
    W4 m ρ c (Proc.devRef .tc b) = W3 m ρ c (Proc.devRef .tc b) :=
  withArrays_keep (dat1 (V3 m ρ) c) launch1.win.arr_inj _ (A_eq1 (V3 m ρ) c) 4 (by decide) b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of_ne (c : Dev nD) (b : Ref sig .tc) (h0 : b ≠ main_v5) :
    W5 m ρ c (Proc.devRef .tc b) = W4 m ρ c (Proc.devRef .tc b) :=
  StableHlo.reshape_result_ne _ _ _ _ _ _ _ h0
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_keep (c : Dev nD) (b : Ref sig .tc) (hb : b ≠ Pipeline.arrRef spec2 4) :
    W6 m ρ c (Proc.devRef .tc b) = W5 m ρ c (Proc.devRef .tc b) :=
  withArrays_keep (dat2 (V5 m ρ) c) launch2.win.arr_inj _ (A_eq2 (V5 m ρ) c) 4 (by decide) b hb

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of_ne (c : Dev nD) (b : Ref sig .tc) (h0 : b ≠ main_v7) :
    W7 m ρ c (Proc.devRef .tc b) = W6 m ρ c (Proc.devRef .tc b) :=
  StableHlo.reshape_result_ne _ _ _ _ _ _ _ h0
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_keep (c : Dev nD) (b : Ref sig .tc) (hb : b ≠ Pipeline.arrRef spec3 4) :
    W8 m ρ c (Proc.devRef .tc b) = W7 m ρ c (Proc.devRef .tc b) :=
  withArrays_keep (dat3 (V7 m ρ) c) launch3.win.arr_inj _ (A_eq3 (V7 m ρ) c) 4 (by decide) b hb

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
theorem W9_of_ne (c : Dev nD) (b : Ref sig .tc) (h0 : b ≠ main_v9) :
    W9 m ρ c (Proc.devRef .tc b) = W8 m ρ c (Proc.devRef .tc b) :=
  StableHlo.reshape_result_ne _ _ _ _ _ _ _ h0
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_keep (c : Dev nD) (b : Ref sig .tc) (hb : b ≠ Pipeline.arrRef spec4 4) :
    W10 m ρ c (Proc.devRef .tc b) = W9 m ρ c (Proc.devRef .tc b) :=
  withArrays_keep (dat4 (V9 m ρ) c) launch4.win.arr_inj _ (A_eq4 (V9 m ρ) c) 4 (by decide) b hb

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
theorem W11_of_ne (c : Dev nD) (b : Ref sig .tc) (h0 : b ≠ main_v11) :
    W11 m ρ c (Proc.devRef .tc b) = W10 m ρ c (Proc.devRef .tc b) :=
  StableHlo.reshape_result_ne _ _ _ _ _ _ _ h0
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_keep (c : Dev nD) (b : Ref sig .tc) (hb : b ≠ Pipeline.arrRef spec5 4) :
    W12 m ρ c (Proc.devRef .tc b) = W11 m ρ c (Proc.devRef .tc b) :=
  withArrays_keep (dat5 (V11 m ρ) c) launch5.win.arr_inj _ (A_eq5 (V11 m ρ) c) 4 (by decide) b hb

abbrev vs : List (Ref sig .tc) :=
  [main_v0, main_v1, main_v2, main_v3, main_v4, main_v5, main_v6, main_v7, main_v8, main_v9, main_v10, main_v11, main_v12]

section

variable (c : Dev nD) (b : Ref sig .tc) (hb : ∀ v ∈ vs, b ≠ v)
include hb

theorem W1_arg : W1 m ρ c (Proc.devRef .tc b) = m ((c : Thread nD τ).loc b) :=
  W1_of_ne m ρ c b (hb _ (by decide)) (hb _ (by decide))
theorem W2_arg : W2 m ρ c (Proc.devRef .tc b) = m ((c : Thread nD τ).loc b) :=
  (W2_keep m ρ c b (hb _ (by decide))).trans (W1_arg m ρ c b hb)
theorem W3_arg : W3 m ρ c (Proc.devRef .tc b) = m ((c : Thread nD τ).loc b) :=
  (W3_of_ne m ρ c b (hb _ (by decide))).trans (W2_arg m ρ c b hb)
theorem W4_arg : W4 m ρ c (Proc.devRef .tc b) = m ((c : Thread nD τ).loc b) :=
  (W4_keep m ρ c b (hb _ (by decide))).trans (W3_arg m ρ c b hb)
theorem W5_arg : W5 m ρ c (Proc.devRef .tc b) = m ((c : Thread nD τ).loc b) :=
  (W5_of_ne m ρ c b (hb _ (by decide))).trans (W4_arg m ρ c b hb)
theorem W6_arg : W6 m ρ c (Proc.devRef .tc b) = m ((c : Thread nD τ).loc b) :=
  (W6_keep m ρ c b (hb _ (by decide))).trans (W5_arg m ρ c b hb)
theorem W7_arg : W7 m ρ c (Proc.devRef .tc b) = m ((c : Thread nD τ).loc b) :=
  (W7_of_ne m ρ c b (hb _ (by decide))).trans (W6_arg m ρ c b hb)
theorem W8_arg : W8 m ρ c (Proc.devRef .tc b) = m ((c : Thread nD τ).loc b) :=
  (W8_keep m ρ c b (hb _ (by decide))).trans (W7_arg m ρ c b hb)
theorem W9_arg : W9 m ρ c (Proc.devRef .tc b) = m ((c : Thread nD τ).loc b) :=
  (W9_of_ne m ρ c b (hb _ (by decide))).trans (W8_arg m ρ c b hb)
theorem W10_arg : W10 m ρ c (Proc.devRef .tc b) = m ((c : Thread nD τ).loc b) :=
  (W10_keep m ρ c b (hb _ (by decide))).trans (W9_arg m ρ c b hb)
theorem W11_arg : W11 m ρ c (Proc.devRef .tc b) = m ((c : Thread nD τ).loc b) :=
  (W11_of_ne m ρ c b (hb _ (by decide))).trans (W10_arg m ρ c b hb)
theorem W12_arg : W12 m ρ c (Proc.devRef .tc b) = m ((c : Thread nD τ).loc b) :=
  (W12_keep m ρ c b (hb _ (by decide))).trans (W11_arg m ρ c b hb)

end

theorem W12_main_v12 (c : Dev nD) : W12 m ρ c (Proc.devRef .tc main_v12) = (dat5 (V11 m ρ) c).arrAt 4 cfg5.N :=
  W12_arr m ρ c 4

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c

end Cert.KernelIdeal.Hand

end
-- ==== Proof.KI.Run.lean ====
import proofs.«136297_g53695681135103_cont_9to1c4b_48_2_alg».proof.Proof.KI.RunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-- A kernel region between two host stretches: its arrays are split out of the buffers held at `W` and rejoin them at
    their final contents. -/
def reg (p : Fin 6) (lf : Pipeline.LaunchFacts (nD := nD) (τ := τ) cfgs p) (W : Dev nD → Valuation τ sig (Elt F))
    (hb : ∀ c, BodyObligation (pdats m ρ p c) defs₀ 𝒱₀ () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c)
    (hA : ∀ c w, (pdats m ρ p c).A w = W c (Pipeline.arrRef (cfgs p).spec w) := by intros; rfl)
    (hq : ∀ c w, (pdats m ρ p c).q w = fullShare := by intros; rfl)
    (howed : ∀ c t, (pdats m ρ p c).owed t = 0 := by intros; rfl)
    (hrec : ∀ c x, x ∈ (pdats m ρ p c).recorded 0 := by intros; trivial) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig)
    (Pipeline.withArrays (cfgs p).spec c (W c) ((pdats m ρ p c).arrAt · (cfgs p).N)) ∗ R c)
  X c := iprop(∃ r, prngReg c r)
  Y c := iprop(∃ r, prngReg c r)
  Z c := Pipeline.unscopedRest (cfgs p).spec c (W c ·)
  hentry c := by
    have hsplit := Pipeline.arrays_of_unscopedBufs _ _ (pdats m ρ) (p := p) lf.win lf.arr_whole c
      ((pdats m ρ p c).share_full (hq c)) (W c ·) (hA c)
    rw [Pipeline.unscopedBufs_held] at hsplit
    unfold Pipeline.prefHeld Pipeline.Dat.owesAt Pipeline.owesWithin
    rw [howed, show (Finset.univ : Finset (Fin 0)) = ∅ from rfl, BI.bigSep_empty]
    iintro ⟨⟨Hub, Hp, %O, HO⟩, -⟩
    ihave H := hsplit $$ Hub
    icases H with ⟨Ha, Hrest⟩
    imodintro
    isplitl [Ha]; · iexact Ha
    isplitr; · iempintro
    isplitl [HO]
    · iexists O; isplitr; · ipureintro; exact fun x _ => Or.inl (hrec c x)
      iexact HO
    isplitl [Hp] <;> iassumption
  hin c := .trans (by unfold Pipeline.ΦA; iintro ⟨Hp, -, Hr⟩; isplitl [Hr] <;> iassumption) (hin c)
  hout c := (hout c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays _ _ (p := p) lf.win lf.arr_whole c (pdats m ρ)
      ((pdats m ρ p c).share_full (hq c)) (W c ·)
      (Pipeline.withArrays (cfgs p).spec c (W c) ((pdats m ρ p c).arrAt · (cfgs p).N) ·) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin; rw [howed]
    iintro ⟨Ha, ⟨%O, -, HO⟩, HY, Hrest⟩
    imodintro
    isplitl [Ha Hrest]
    · iapply hjoin; isplitl [Ha] <;> iassumption
    isplitl [HY]; · iexact HY
    iexists O; iexact HO

def reg0 := reg m ρ 0 launch0 (W1 m ρ) (body_obligation0 (V1 m ρ)) (hin0 (V1 m ρ)) (hout0 (V1 m ρ))
def reg1 := reg m ρ 1 launch1 (W3 m ρ) (body_obligation1 (V3 m ρ)) (hin1 (V3 m ρ)) (hout1 (V3 m ρ))
def reg2 := reg m ρ 2 launch2 (W5 m ρ) (body_obligation2 (V5 m ρ)) (hin2 (V5 m ρ)) (hout2 (V5 m ρ))
def reg3 := reg m ρ 3 launch3 (W7 m ρ) (body_obligation3 (V7 m ρ)) (hin3 (V7 m ρ)) (hout3 (V7 m ρ))
def reg4 := reg m ρ 4 launch4 (W9 m ρ) (body_obligation4 (V9 m ρ)) (hin4 (V9 m ρ)) (hout4 (V9 m ρ))
def reg5 := reg m ρ 5 launch5 (W11 m ρ) (body_obligation5 (V11 m ρ)) (hin5 (V11 m ρ)) (hout5 (V11 m ρ))

abbrev segs : List (Pipeline.Seg (pcfgs (F := F)) adm (pdats m ρ) () defs₀ 𝒱₀ L lv) :=
  [ .host (hseg hostOps0 hostOps0_sub (W0 m ρ)),
    .region (reg0 m ρ),
    .host (hseg hostOps1 hostOps1_sub (W2 m ρ)),
    .region (reg1 m ρ),
    .host (hseg hostOps2 hostOps2_sub (W4 m ρ)),
    .region (reg2 m ρ),
    .host (hseg hostOps3 hostOps3_sub (W6 m ρ)),
    .region (reg3 m ρ),
    .host (hseg hostOps4 hostOps4_sub (W8 m ρ)),
    .region (reg4 m ρ),
    .host (hseg hostOps5 hostOps5_sub (W10 m ρ)),
    .region (reg5 m ρ) ]
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have k (b : Ref sig .tc) hu hb : r.2.mem ((c.tc : Thread nD τ).loc b) = m ((c.tc : Thread nD τ).loc b) :=
      (h c _ (mem_uc b hu)).trans (W12_arg m ρ c b hb)
    ⟨k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide),
      k main_arg9 (by decide) (by decide), k main_arg10 (by decide) (by decide), k main_arg11 (by decide) (by decide),
      k main_arg12 (by decide) (by decide), k main_arg13 (by decide) (by decide)⟩) (run m ρ)

end Cert.KernelIdeal.Hand

end
-- ==== Proof.KI.Payload.lean ====
import proofs.«136297_g53695681135103_cont_9to1c4b_48_2_alg».proof.Proof.Gen.KernelIdeal.Skeleton
import proofs.«136297_g53695681135103_cont_9to1c4b_48_2_alg».proof.Proof.Spec
import Idealize.ShloMosaic.Lib.StackMember
import Idealize.ShloMosaic.Lib.ValueLayout

noncomputable section

open scoped BigOperators

namespace Cert.KernelIdeal.Payload

open Cert.KernelIdeal Cert.KernelIdeal.Gen Idealize.ShloMosaic Idealize.ShloMosaic.ValueIdx

theorem mm_apply {m k n : ℕ} {φ₁ φ₂ : FTy} (a : FVec Ideal ⟨2, ![m, k]⟩ φ₁) (b : FVec Ideal ⟨2, ![k, n]⟩ φ₂)
    (p : Fin m) (c : Fin n) :
    matmul (F := Ideal) (DotDims.plain m k n) none a b (constant _ .f32 0x00000000#32) (ix2 p c)
      = ∑ j : Fin k, a (ix2 p j) * b (ix2 j c) :=
  (congrFun (matmul_zero_eq_dotGeneral _ none a b) _).trans (StackMember.dotGeneral_plain_apply none a b p c)

theorem pre_apply {m k n : ℕ} (a : FVec Ideal ⟨2, ![m, k]⟩ .bf16) (b : FVec Ideal ⟨2, ![k, n]⟩ .bf16)
    (v : FVec Ideal ⟨2, ![1, n]⟩ .f32) (ha hv hb) (r : Fin m) (c : Fin n) :
    addf (matmul (F := Ideal) (DotDims.plain m k n) none (shapeCast _ a ha) b (constant _ .f32 0x00000000#32))
      (broadcastTo ⟨2, ![m, n]⟩ (shapeCast ⟨2, ![1, n]⟩ v hv) hb) (ix2 r c)
      = (∑ j : Fin k, a (ix2 r j) * b (ix2 j c)) + v (ix2 0 c) := by
  rw [shapeCast_self, shapeCast_self]
  exact congrArg₂ (· + ·) (mm_apply a b r c) (broadcastTo_1b_ab_apply v _ r c)

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row (r : Fin 400) (c : Fin 40) : reduces_S400x40_S400.lift (ix1 r) c = ix2 r c :=
  funext fun ax => Fin.ext (by
    match ax with
    | ⟨0, _⟩ => rfl
    | ⟨1, _⟩ => rfl)

theorem laneMax_apply (v : FVec Ideal S400x40 .f32) (r : Fin 400) :
    multiReduction (F := Ideal) .maximumf [1] S400 v 0xFF800000#32 reduces_S400x40_S400 (.inl rfl) rfl (ix1 r)
      = Cert.Spec.rowmax (fun c => v (ix2 r c)) := by
  refine (Ideal.multiReduction_maximumf_single v 0xFF800000#32 reduces_S400x40_S400 (.inl rfl) rfl (ix1 r)).trans ?_
  have hf : (v ∘ reduces_S400x40_S400.lift (ix1 r)) = fun c : Fin 40 => v (ix2 r c) :=
    funext fun c => congrArg v (lift_row r c)
  rw [hf]
  rfl

theorem laneSum_apply (v : FVec Ideal S400x40 .f32) (r : Fin 400) :
    multiReduction (F := Ideal) .add [1] S400 v 0x00000000#32 reduces_S400x40_S400 (.inl rfl) rfl (ix1 r)
      = ∑ c : Fin 40, v (ix2 r c) := by
  refine (Ideal.multiReduction_add_single v 0x00000000#32 reduces_S400x40_S400 (.inl rfl) rfl (ix1 r)).trans ?_
  exact Finset.sum_congr rfl fun c _ => congrArg v (lift_row r c)

theorem lsm_tail (v : FVec Ideal S400x40 .f32) (r : Fin 400) (n : Fin 40) :
    subf v
      (broadcastTo S400x40
        (addf
          (log (shapeCast S400x1
            (multiReduction (F := Ideal) .add [1] S400
              (exp (subf v
                (broadcastTo S400x40
                  (shapeCast S400x1
                    (multiReduction (F := Ideal) .maximumf [1] S400 v 0xFF800000#32 reduces_S400x40_S400 (.inl rfl) rfl)
                    shapeCasts_S400_S400x1)
                  broadcasts_S400x1_S400x40)))
              0x00000000#32 reduces_S400x40_S400 (.inl rfl) rfl)
            shapeCasts_S400_S400x1))
          (shapeCast S400x1
            (multiReduction (F := Ideal) .maximumf [1] S400 v 0xFF800000#32 reduces_S400x40_S400 (.inl rfl) rfl)
            shapeCasts_S400_S400x1))
        broadcasts_S400x1_S400x40) (ix2 r n)
      = Cert.Spec.lsmK (fun c => v (ix2 r c)) n := by
  have hcol : shapeCast S400x1
      (multiReduction (F := Ideal) .maximumf [1] S400 v 0xFF800000#32 reduces_S400x40_S400 (.inl rfl) rfl)
      shapeCasts_S400_S400x1 (ix2 r (0 : Fin 1)) = Cert.Spec.rowmax (fun c => v (ix2 r c)) :=
    (shapeCast_a_a1_apply _ _ r 0).trans (laneMax_apply v r)
  unfold Cert.Spec.lsmK
  refine (subf_apply _ _ _).trans ?_
  refine congrArg (fun t => v (ix2 r n) - t) ?_
  refine (broadcastTo_a1_ab_apply _ _ r n).trans ?_
  refine (addf_apply _ _ _).trans ?_
  refine congrArg₂ (· + ·) ?_ hcol
  refine congrArg Ideal.log ?_
  refine (shapeCast_a_a1_apply _ _ r 0).trans ?_
  refine (laneSum_apply _ r).trans ?_
  refine Finset.sum_congr rfl fun c _ => ?_
  refine congrArg Ideal.exp ?_
  refine (subf_apply _ _ _).trans ?_
  exact congrArg (fun t => v (ix2 r c) - t) ((broadcastTo_a1_ab_apply _ _ r c).trans hcol)

theorem blk_emb {G : Pipeline.Grid} (w : Pipeline.Window sig G) (t : Fin G.N) (y : (w.xblock (G.coords t)).Idx) (I : w.shape.Idx)
    (off : Fin w.shape.rank → ℕ) (ho : ∀ a, w.index t a * w.size a = off a) (h : ∀ a, off a + y a = I a) :
    (w.rect t).emb y = I :=
  funext fun a => Fin.ext ((w.rect_emb_val t y a).trans ((congrArg (· + (y a : ℕ)) (ho a)).trans (h a)))

variable (x0 : FVec Ideal S10000x128 .f32) (x3 : FVec Ideal S400x10000 .bf16)

section
variable (x1 : FVec Ideal S128x128 .f32) (k : Fin 10000) (s : FVec Ideal S10000x128 .bf16) (x2 : FVec Ideal S1x128 .f32)
  (r : Fin 400) (n : Fin 128)

theorem pay1_0 : k0_pay1 (F := Ideal) x0 x1 (ix2 k n) = Cert.Spec.sup128 x0 x1 k n :=
  (congrFun (shapeCast_self _ _) _).trans (mm_apply x0 x1 k n)

theorem pay1_1 : k1_pay1 (F := Ideal) x0 x1 (ix2 k n) = Cert.Spec.sup128 x0 x1 k n := by
  unfold k1_pay1
  rw [shapeCast_self, shapeCast_self]
  exact mm_apply x0 x1 k n

theorem pay1_2 : k2_pay1 (F := Ideal) x0 x1 (ix2 k n) = Cert.Spec.sup128 x0 x1 k n := pay1_1 x0 x1 k n
theorem pay1_3 : k3_pay1 (F := Ideal) x0 x1 (ix2 k n) = Cert.Spec.sup128 x0 x1 k n := pay1_1 x0 x1 k n
theorem pay1_4 : k4_pay1 (F := Ideal) x0 x1 (ix2 k n) = Cert.Spec.sup128 x0 x1 k n := pay1_1 x0 x1 k n

theorem pay2_0 : k0_pay2 (F := Ideal) x3 s x2 (ix2 r n)
    = max ((∑ k : Fin 10000, x3 (ix2 r k) * s (ix2 k n)) + x2 (ix2 0 n)) Cert.Spec.zero32 :=
  congrArg₂ max (pre_apply x3 s x2 _ _ _ r n) rfl

theorem pay2_1 : k1_pay2 (F := Ideal) x3 s x2 (ix2 r n)
    = max ((∑ k : Fin 10000, x3 (ix2 r k) * s (ix2 k n)) + x2 (ix2 0 n)) Cert.Spec.zero32 := pay2_0 x3 s x2 r n
theorem pay2_2 : k2_pay2 (F := Ideal) x3 s x2 (ix2 r n)
    = max ((∑ k : Fin 10000, x3 (ix2 r k) * s (ix2 k n)) + x2 (ix2 0 n)) Cert.Spec.zero32 := pay2_0 x3 s x2 r n
theorem pay2_3 : k3_pay2 (F := Ideal) x3 s x2 (ix2 r n)
    = max ((∑ k : Fin 10000, x3 (ix2 r k) * s (ix2 k n)) + x2 (ix2 0 n)) Cert.Spec.zero32 := pay2_0 x3 s x2 r n
theorem pay2_4 : k4_pay2 (F := Ideal) x3 s x2 (ix2 r n)
    = max ((∑ k : Fin 10000, x3 (ix2 r k) * s (ix2 k n)) + x2 (ix2 0 n)) Cert.Spec.zero32 := pay2_0 x3 s x2 r n

end

variable (x1 : FVec Ideal S128x40 .f32) (k : Fin 10000) (s : FVec Ideal S10000x40 .bf16) (x2 : FVec Ideal S1x40 .f32)
  (r : Fin 400) (n : Fin 40)

theorem pay1_5 : k5_pay1 (F := Ideal) x0 x1 (ix2 k n) = Cert.Spec.sup40 x0 x1 k n := by
  unfold k5_pay1
  rw [shapeCast_self, shapeCast_self]
  exact mm_apply x0 x1 k n

theorem pay2_5 : k5_pay2 (F := Ideal) x3 s x2 (ix2 r n)
    = Cert.Spec.lsmK (fun n' => (∑ k : Fin 10000, x3 (ix2 r k) * s (ix2 k n')) + x2 (ix2 0 n')) n :=
  (lsm_tail _ r n).trans (congrArg (fun x => Cert.Spec.lsmK x n) (funext fun c => pre_apply x3 s x2 _ _ _ r c))

end Cert.KernelIdeal.Payload

end
-- ==== Proof.KI.Value0.lean ====
import proofs.«136297_g53695681135103_cont_9to1c4b_48_2_alg».proof.Proof.KI.Region0
import proofs.«136297_g53695681135103_cont_9to1c4b_48_2_alg».proof.Proof.KI.Payload
import proofs.«136297_g53695681135103_cont_9to1c4b_48_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

open scoped BigOperators

section Pieces

variable {F : FTy → Type} [FloatOps F]

theorem hz0 : (![0, 0] : Fin 2 → Nat) = fun _ => 0 := funext fun a => by fin_cases a <;> rfl

section

variable (c : Dev nD) (i : grid0.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond0 i) (x0 : Vec F S10000x128 .f32) (x1 : Vec F S128x128 .f32) (x2 : Vec F S1x128 .f32) (x3 : Vec F S400x10000 .bf16)

theorem sout0_A_eq :
    sout0_A c i arg1 harg1 arg2 harg2 arg3 harg3 arg4 harg4 arg5 harg5 arg6 harg6 hc0 x0 x1 x2 x3 = k0_pay1 x0 x1 := by
  unfold sout0_A
  rw [View.read_writes_eq_canon _ _ _ (scover0_A c i arg1 harg1 arg2 harg2 arg3 harg3 arg4 harg4 arg5 harg5 arg6 harg6 hc0 x0 x1 x2 x3)]
  unfold kernelRun0_A
  dsimp only
  sl_unfold_words
  rw [View.canon_unit_zero hz0]
  simp only [View.readAt_eq_ld, harg1.read_unread, harg2.read_unread, View.ld_unit_zero (S := S10000x128) hz0, View.ld_unit_zero (S := S128x128) hz0]

theorem out0_A_eq :
    out0_A c i arg1 harg1 arg2 harg2 arg3 harg3 arg4 harg4 arg5 harg5 arg6 harg6 hc0 x0 x1 x2 x3 = k0_pay2 x3 (k0_pay1 x0 x1) x2 := by
  unfold out0_A
  rw [View.read_writes_eq_canon _ _ _ (cover0_A c i arg1 harg1 arg2 harg2 arg3 harg3 arg4 harg4 arg5 harg5 arg6 harg6 hc0 x0 x1 x2 x3)]
  unfold kernelRun0_A
  dsimp only
  sl_unfold_words
  rw [View.canon_unit_zero hz0]
  simp only [View.readAt_eq_ld, harg1.read_unread, harg2.read_unread, harg3.read_unread, harg4.read_unread,
    View.readCov_unit_zero (S := S10000x128) _ hz0,
    View.ld_unit_zero (S := S10000x128) hz0, View.ld_unit_zero (S := S128x128) hz0, View.ld_unit_zero (S := S1x128) hz0,
    View.ld_unit_zero (S := S400x10000) hz0]

end

section

variable (hc0 : ¬cond0 i) (x0 : Vec F S10000x128 .f32) (x1 : Vec F S128x128 .f32) (x2 : Vec F S1x128 .f32) (x3 : Vec F S400x10000 .bf16) (xs : Vec F S10000x128 .bf16)

theorem out0_B_eq :
    out0_B c i arg1 harg1 arg2 harg2 arg3 harg3 arg4 harg4 arg5 harg5 arg6 harg6 hc0 x0 x1 x2 x3 xs = k0_pay2 x3 xs x2 := by
  unfold out0_B
  rw [View.read_writes_eq_canon _ _ _ (cover0_B c i arg1 harg1 arg2 harg2 arg3 harg3 arg4 harg4 arg5 harg5 arg6 harg6 hc0 x0 x1 x2 x3 xs)]
  unfold kernelRun0_B
  dsimp only
  sl_unfold_words
  rw [View.canon_unit_zero hz0]
  simp only [View.readAt_eq_ld, harg3.read_unread, harg4.read_unread, harg6.read_unread,
    View.ld_unit_zero (S := S10000x128) hz0, View.ld_unit_zero (S := S1x128) hz0, View.ld_unit_zero (S := S400x10000) hz0]

end

end

variable (V : (c : Dev nD) → (b : Ref sig .tc) → Buf (Elt F) ((c : Thread nD τ).loc b))

theorem scr0_eq (c : Dev nD) : scr0 V c = k0_pay1 (iblk0 V c 0 t0_0) (iblk0 V c 1 t0_0) := by
  unfold scr0
  exact sout0_A_eq c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hc0_first (iblk0 V c 0 t0_0) (iblk0 V c 1 t0_0) (iblk0 V c 2 t0_0) (iblk0 V c 3 t0_0)

theorem outAt0_eq (c : Dev nD) (t : Fin cfg0.N) :
    outAt0 V c t = k0_pay2 (iblk0 V c 3 t) (k0_pay1 (iblk0 V c 0 t0_0) (iblk0 V c 1 t0_0)) (iblk0 V c 2 t) := by
  by_cases h : t.val = 0
  · obtain rfl : t = t0_0 := Fin.ext h
    rw [outAt0_first V c t0_0 rfl]
    exact out0_A_eq c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) ((hcond0 t0_0).mpr rfl) (iblk0 V c 0 t0_0) (iblk0 V c 1 t0_0) (iblk0 V c 2 t0_0) (iblk0 V c 3 t0_0)
  · rw [outAt0_later V c t h]
    refine (out0_B_eq c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0 t).mp hc)) (iblk0 V c 0 t) (iblk0 V c 1 t) (iblk0 V c 2 t) (iblk0 V c 3 t) (scr0 V c)).trans ?_
    rw [scr0_eq]

end Pieces

section Array

variable (V : (c : Dev nD) → (b : Ref sig .tc) → Buf (Elt Ideal) ((c : Thread nD τ).loc b))

abbrev adjArr0 (c : Dev nD) : Vec Ideal S10000x10000 .bf16 := V c (Pipeline.arrRef spec0 3)
abbrev featArr0 (c : Dev nD) : Vec Ideal S10000x128 .f32 := V c (Pipeline.arrRef spec0 0)
abbrev wgtArr0 (c : Dev nD) : Vec Ideal S128x128 .f32 := V c (Pipeline.arrRef spec0 1)
abbrev biasArr0 (c : Dev nD) : Vec Ideal S1x128 .f32 := V c (Pipeline.arrRef spec0 2)

abbrev layer0 (c : Dev nD) : Vec Ideal S10000x128 .f32 :=
  Cert.Spec.hid (adjArr0 V c) (featArr0 V c) (wgtArr0 V c) (fun n => biasArr0 V c (ix2 0 n))

theorem idx_facts0 : ∀ t : Fin cfg0.N,
    (∀ a, win0_0.index t a * win0_0.size a = 0) ∧ (∀ a, win0_1.index t a * win0_1.size a = 0)
    ∧ (∀ a, win0_2.index t a * win0_2.size a = 0)
    ∧ (∀ a, win0_3.index t a * win0_3.size a = ![400 * t.val, 0] a)
    ∧ (∀ a, win0_4.index t a * win0_4.size a = ![400 * t.val, 0] a) :=
  (by decide +kernel : ∀ t : Fin grid0.N, _)

theorem flushed0_eq (c : Dev nD) (t : Fin cfg0.N) :
    (dat0 (F := Ideal) V c).flushed 4 t = ((cfg0.win 4).blk t).view.read (Elt Ideal) (layer0 V c) := by
  obtain ⟨-, -, o2, o3, o4⟩ := idx_facts0 t
  obtain ⟨o0, o1, -⟩ := idx_facts0 t0_0
  show (cfg0.win 4).cut (grid0.coords t) ((dat0 V c).after 4 t) = _
  rw [after0_4, outAt0_eq]
  refine funext fun (y : S400x128.Idx) => ?_
  obtain ⟨r, n, rfl⟩ : ∃ (r : Fin 400) (n : Fin 128), y = ix2 r n := ⟨y 0, y 1, eq_ix2 y⟩
  have hN : cfg0.N = 25 := N_0
  have hR : 400 * t.val + r.val < 10000 := by have := t.isLt; have := r.isLt; omega
  refine (Payload.pay2_0 (iblk0 V c 3 t) (k0_pay1 (F := Ideal) (iblk0 V c 0 t0_0) (iblk0 V c 1 t0_0)) (iblk0 V c 2 t) r n).trans ?_
  refine Eq.trans ?_ (congrArg (layer0 V c)
    (Payload.blk_emb win0_4 t (ix2 r n) (ix2 ⟨_, hR⟩ n) _ o4 (Fin.forall_fin_two.2 ⟨rfl, Nat.zero_add _⟩))).symm
  refine congrArg₂ max (congrArg₂ (· + ·) (Finset.sum_congr rfl fun k _ => congrArg₂ (· * ·)
    (congrArg (adjArr0 V c) (Payload.blk_emb win0_3 t (ix2 r k) (ix2 ⟨_, hR⟩ k) _ o3 (Fin.forall_fin_two.2 ⟨rfl, Nat.zero_add _⟩))) ?_)
    (congrArg (biasArr0 V c) (Payload.blk_emb win0_2 t (ix2 0 n) (ix2 0 n) _ o2 fun _ => Nat.zero_add _))) rfl
  refine (Payload.pay1_0 (iblk0 V c 0 t0_0) (iblk0 V c 1 t0_0) k n).trans ?_
  exact Finset.sum_congr rfl fun j _ => congrArg₂ (· * ·)
    (congrArg (featArr0 V c) (Payload.blk_emb win0_0 t0_0 (ix2 k j) (ix2 k j) _ o0 fun _ => Nat.zero_add _))
    (congrArg (wgtArr0 V c) (Payload.blk_emb win0_1 t0_0 (ix2 j n) (ix2 j n) _ o1 fun _ => Nat.zero_add _))

theorem cover0 (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  let t : Fin cfg0.N := ⟨(i 0).val / 400, by rw [hN]; omega⟩
  refine ⟨t, flush0_4 t, ?_⟩
  show i ∈ ((View.whole (Pipeline.arrRef spec0 4)).slice (win0_4.rect t)).set
  rw [View.set_slice_whole, Rect.mem_set_unit]
  intro a
  rw [(idx_facts0 t).2.2.2.2 a]
  match a with
  | ⟨0, _⟩ => show 400 * ((i 0).val / 400) ≤ (i 0).val ∧ (i 0).val < 400 * ((i 0).val / 400) + 400; omega
  | ⟨1, _⟩ => show 0 ≤ (i 1).val ∧ (i 1).val < 0 + 128; omega

theorem arrAt0_eq (c : Dev nD) :
    (dat0 (F := Ideal) V c).arrAt 4 cfg0.N
      = Cert.Spec.hid (V c (Pipeline.arrRef spec0 3)) (V c (Pipeline.arrRef spec0 0)) (V c (Pipeline.arrRef spec0 1))
          (fun n => V c (Pipeline.arrRef spec0 2) (ValueIdx.ix2 0 n)) :=
  (dat0 (F := Ideal) V c).arrAt_eq_of_cover 4 (layer0 V c) (fun t _ => flushed0_eq V c t) cover0

end Array

end Cert.KernelIdeal.Hand

end
-- ==== Proof.KI.Value1.lean ====
import proofs.«136297_g53695681135103_cont_9to1c4b_48_2_alg».proof.Proof.KI.Region1
import proofs.«136297_g53695681135103_cont_9to1c4b_48_2_alg».proof.Proof.KI.Payload
import proofs.«136297_g53695681135103_cont_9to1c4b_48_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

open scoped BigOperators

section Pieces

variable {F : FTy → Type} [FloatOps F]

theorem hz1 : (![0, 0] : Fin 2 → Nat) = fun _ => 0 := funext fun a => by fin_cases a <;> rfl

section

variable (c : Dev nD) (i : grid1.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond1 i) (x0 : Vec F S10000x128 .f32) (x1 : Vec F S128x128 .f32) (x2 : Vec F S1x128 .f32) (x3 : Vec F S400x10000 .bf16)

theorem sout1_A_eq :
    sout1_A c i arg1 harg1 arg2 harg2 arg3 harg3 arg4 harg4 arg5 harg5 arg6 harg6 hc0 x0 x1 x2 x3 = k1_pay1 x0 x1 := by
  unfold sout1_A
  rw [View.read_writes_eq_canon _ _ _ (scover1_A c i arg1 harg1 arg2 harg2 arg3 harg3 arg4 harg4 arg5 harg5 arg6 harg6 hc0 x0 x1 x2 x3)]
  unfold kernelRun1_A
  dsimp only
  sl_unfold_words
  rw [View.canon_unit_zero hz1]
  simp only [View.readAt_eq_ld, harg1.read_unread, harg2.read_unread, View.ld_unit_zero (S := S10000x128) hz1, View.ld_unit_zero (S := S128x128) hz1]

theorem out1_A_eq :
    out1_A c i arg1 harg1 arg2 harg2 arg3 harg3 arg4 harg4 arg5 harg5 arg6 harg6 hc0 x0 x1 x2 x3 = k1_pay2 x3 (k1_pay1 x0 x1) x2 := by
  unfold out1_A
  rw [View.read_writes_eq_canon _ _ _ (cover1_A c i arg1 harg1 arg2 harg2 arg3 harg3 arg4 harg4 arg5 harg5 arg6 harg6 hc0 x0 x1 x2 x3)]
  unfold kernelRun1_A
  dsimp only
  sl_unfold_words
  rw [View.canon_unit_zero hz1]
  simp only [View.readAt_eq_ld, harg1.read_unread, harg2.read_unread, harg3.read_unread, harg4.read_unread,
    View.readCov_unit_zero (S := S10000x128) _ hz1,
    View.ld_unit_zero (S := S10000x128) hz1, View.ld_unit_zero (S := S128x128) hz1, View.ld_unit_zero (S := S1x128) hz1,
    View.ld_unit_zero (S := S400x10000) hz1]

end

section

variable (hc0 : ¬cond1 i) (x0 : Vec F S10000x128 .f32) (x1 : Vec F S128x128 .f32) (x2 : Vec F S1x128 .f32) (x3 : Vec F S400x10000 .bf16) (xs : Vec F S10000x128 .bf16)

theorem out1_B_eq :
    out1_B c i arg1 harg1 arg2 harg2 arg3 harg3 arg4 harg4 arg5 harg5 arg6 harg6 hc0 x0 x1 x2 x3 xs = k1_pay2 x3 xs x2 := by
  unfold out1_B
  rw [View.read_writes_eq_canon _ _ _ (cover1_B c i arg1 harg1 arg2 harg2 arg3 harg3 arg4 harg4 arg5 harg5 arg6 harg6 hc0 x0 x1 x2 x3 xs)]
  unfold kernelRun1_B
  dsimp only
  sl_unfold_words
  rw [View.canon_unit_zero hz1]
  simp only [View.readAt_eq_ld, harg3.read_unread, harg4.read_unread, harg6.read_unread,
    View.ld_unit_zero (S := S10000x128) hz1, View.ld_unit_zero (S := S1x128) hz1, View.ld_unit_zero (S := S400x10000) hz1]

end

end

variable (V : (c : Dev nD) → (b : Ref sig .tc) → Buf (Elt F) ((c : Thread nD τ).loc b))

theorem scr1_eq (c : Dev nD) : scr1 V c = k1_pay1 (iblk1 V c 0 t0_1) (iblk1 V c 1 t0_1) := by
  unfold scr1
  exact sout1_A_eq c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) hc1_first (iblk1 V c 0 t0_1) (iblk1 V c 1 t0_1) (iblk1 V c 2 t0_1) (iblk1 V c 3 t0_1)

theorem outAt1_eq (c : Dev nD) (t : Fin cfg1.N) :
    outAt1 V c t = k1_pay2 (iblk1 V c 3 t) (k1_pay1 (iblk1 V c 0 t0_1) (iblk1 V c 1 t0_1)) (iblk1 V c 2 t) := by
  by_cases h : t.val = 0
  · obtain rfl : t = t0_1 := Fin.ext h
    rw [outAt1_first V c t0_1 rfl]
    exact out1_A_eq c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) ((hcond1 t0_1).mpr rfl) (iblk1 V c 0 t0_1) (iblk1 V c 1 t0_1) (iblk1 V c 2 t0_1) (iblk1 V c 3 t0_1)
  · rw [outAt1_later V c t h]
    refine (out1_B_eq c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (scr1 V c)).trans ?_
    rw [scr1_eq]

end Pieces

section Array

variable (V : (c : Dev nD) → (b : Ref sig .tc) → Buf (Elt Ideal) ((c : Thread nD τ).loc b))

abbrev adjArr1 (c : Dev nD) : Vec Ideal S10000x10000 .bf16 := V c (Pipeline.arrRef spec1 3)
abbrev featArr1 (c : Dev nD) : Vec Ideal S10000x128 .f32 := V c (Pipeline.arrRef spec1 0)
abbrev wgtArr1 (c : Dev nD) : Vec Ideal S128x128 .f32 := V c (Pipeline.arrRef spec1 1)
abbrev biasArr1 (c : Dev nD) : Vec Ideal S1x128 .f32 := V c (Pipeline.arrRef spec1 2)

abbrev layer1 (c : Dev nD) : Vec Ideal S10000x128 .f32 :=
  Cert.Spec.hid (adjArr1 V c) (featArr1 V c) (wgtArr1 V c) (fun n => biasArr1 V c (ix2 0 n))

theorem idx_facts1 : ∀ t : Fin cfg1.N,
    (∀ a, win1_0.index t a * win1_0.size a = 0) ∧ (∀ a, win1_1.index t a * win1_1.size a = 0)
    ∧ (∀ a, win1_2.index t a * win1_2.size a = 0)
    ∧ (∀ a, win1_3.index t a * win1_3.size a = ![400 * t.val, 0] a)
    ∧ (∀ a, win1_4.index t a * win1_4.size a = ![400 * t.val, 0] a) :=
  (by decide +kernel : ∀ t : Fin grid1.N, _)

theorem flushed1_eq (c : Dev nD) (t : Fin cfg1.N) :
    (dat1 (F := Ideal) V c).flushed 4 t = ((cfg1.win 4).blk t).view.read (Elt Ideal) (layer1 V c) := by
  obtain ⟨-, -, o2, o3, o4⟩ := idx_facts1 t
  obtain ⟨o0, o1, -⟩ := idx_facts1 t0_1
  show (cfg1.win 4).cut (grid1.coords t) ((dat1 V c).after 4 t) = _
  rw [after1_4, outAt1_eq]
  refine funext fun (y : S400x128.Idx) => ?_
  obtain ⟨r, n, rfl⟩ : ∃ (r : Fin 400) (n : Fin 128), y = ix2 r n := ⟨y 0, y 1, eq_ix2 y⟩
  have hN : cfg1.N = 25 := N_1
  have hR : 400 * t.val + r.val < 10000 := by have := t.isLt; have := r.isLt; omega
  refine (Payload.pay2_1 (iblk1 V c 3 t) (k1_pay1 (F := Ideal) (iblk1 V c 0 t0_1) (iblk1 V c 1 t0_1)) (iblk1 V c 2 t) r n).trans ?_
  refine Eq.trans ?_ (congrArg (layer1 V c)
    (Payload.blk_emb win1_4 t (ix2 r n) (ix2 ⟨_, hR⟩ n) _ o4 (Fin.forall_fin_two.2 ⟨rfl, Nat.zero_add _⟩))).symm
  refine congrArg₂ max (congrArg₂ (· + ·) (Finset.sum_congr rfl fun k _ => congrArg₂ (· * ·)
    (congrArg (adjArr1 V c) (Payload.blk_emb win1_3 t (ix2 r k) (ix2 ⟨_, hR⟩ k) _ o3 (Fin.forall_fin_two.2 ⟨rfl, Nat.zero_add _⟩))) ?_)
    (congrArg (biasArr1 V c) (Payload.blk_emb win1_2 t (ix2 0 n) (ix2 0 n) _ o2 fun _ => Nat.zero_add _))) rfl
  refine (Payload.pay1_1 (iblk1 V c 0 t0_1) (iblk1 V c 1 t0_1) k n).trans ?_
  exact Finset.sum_congr rfl fun j _ => congrArg₂ (· * ·)
    (congrArg (featArr1 V c) (Payload.blk_emb win1_0 t0_1 (ix2 k j) (ix2 k j) _ o0 fun _ => Nat.zero_add _))
    (congrArg (wgtArr1 V c) (Payload.blk_emb win1_1 t0_1 (ix2 j n) (ix2 j n) _ o1 fun _ => Nat.zero_add _))

theorem cover1 (i : S10000x128.Idx) :
    ∃ t : Fin cfg1.N, (cfg1.win 4).flush t = true ∧ i ∈ ((cfg1.win 4).blk t).view.set := by
  have hN : cfg1.N = 25 := N_1
  have hi0 : (i 0).val < 10000 := (i 0).isLt
  have hi1 : (i 1).val < 128 := (i 1).isLt
  let t : Fin cfg1.N := ⟨(i 0).val / 400, by rw [hN]; omega⟩
  refine ⟨t, flush1_4 t, ?_⟩
  show i ∈ ((View.whole (Pipeline.arrRef spec1 4)).slice (win1_4.rect t)).set
  rw [View.set_slice_whole, Rect.mem_set_unit]
  intro a
  rw [(idx_facts1 t).2.2.2.2 a]
  match a with
  | ⟨0, _⟩ => show 400 * ((i 0).val / 400) ≤ (i 0).val ∧ (i 0).val < 400 * ((i 0).val / 400) + 400; omega
  | ⟨1, _⟩ => show 0 ≤ (i 1).val ∧ (i 1).val < 0 + 128; omega

theorem arrAt1_eq (c : Dev nD) :
    (dat1 (F := Ideal) V c).arrAt 4 cfg1.N
      = Cert.Spec.hid (V c (Pipeline.arrRef spec1 3)) (V c (Pipeline.arrRef spec1 0)) (V c (Pipeline.arrRef spec1 1))
          (fun n => V c (Pipeline.arrRef spec1 2) (ValueIdx.ix2 0 n)) :=
  (dat1 (F := Ideal) V c).arrAt_eq_of_cover 4 (layer1 V c) (fun t _ => flushed1_eq V c t) cover1

end Array

end Cert.KernelIdeal.Hand

end
-- ==== Proof.KI.Value2.lean ====
import proofs.«136297_g53695681135103_cont_9to1c4b_48_2_alg».proof.Proof.KI.Region2
import proofs.«136297_g53695681135103_cont_9to1c4b_48_2_alg».proof.Proof.KI.Payload
import proofs.«136297_g53695681135103_cont_9to1c4b_48_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

open scoped BigOperators

section Pieces

variable {F : FTy → Type} [FloatOps F]

theorem hz2 : (![0, 0] : Fin 2 → Nat) = fun _ => 0 := funext fun a => by fin_cases a <;> rfl

section

variable (c : Dev nD) (i : grid2.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond2 i) (x0 : Vec F S10000x128 .f32) (x1 : Vec F S128x128 .f32) (x2 : Vec F S1x128 .f32) (x3 : Vec F S400x10000 .bf16)

theorem sout2_A_eq :
    sout2_A c i arg1 harg1 arg2 harg2 arg3 harg3 arg4 harg4 arg5 harg5 arg6 harg6 hc0 x0 x1 x2 x3 = k2_pay1 x0 x1 := by
  unfold sout2_A
  rw [View.read_writes_eq_canon _ _ _ (scover2_A c i arg1 harg1 arg2 harg2 arg3 harg3 arg4 harg4 arg5 harg5 arg6 harg6 hc0 x0 x1 x2 x3)]
  unfold kernelRun2_A
  dsimp only
  sl_unfold_words
  rw [View.canon_unit_zero hz2]
  simp only [View.readAt_eq_ld, harg1.read_unread, harg2.read_unread, View.ld_unit_zero (S := S10000x128) hz2, View.ld_unit_zero (S := S128x128) hz2]

theorem out2_A_eq :
    out2_A c i arg1 harg1 arg2 harg2 arg3 harg3 arg4 harg4 arg5 harg5 arg6 harg6 hc0 x0 x1 x2 x3 = k2_pay2 x3 (k2_pay1 x0 x1) x2 := by
  unfold out2_A
  rw [View.read_writes_eq_canon _ _ _ (cover2_A c i arg1 harg1 arg2 harg2 arg3 harg3 arg4 harg4 arg5 harg5 arg6 harg6 hc0 x0 x1 x2 x3)]
  unfold kernelRun2_A
  dsimp only
  sl_unfold_words
  rw [View.canon_unit_zero hz2]
  simp only [View.readAt_eq_ld, harg1.read_unread, harg2.read_unread, harg3.read_unread, harg4.read_unread,
    View.readCov_unit_zero (S := S10000x128) _ hz2,
    View.ld_unit_zero (S := S10000x128) hz2, View.ld_unit_zero (S := S128x128) hz2, View.ld_unit_zero (S := S1x128) hz2,
    View.ld_unit_zero (S := S400x10000) hz2]

end

section

variable (hc0 : ¬cond2 i) (x0 : Vec F S10000x128 .f32) (x1 : Vec F S128x128 .f32) (x2 : Vec F S1x128 .f32) (x3 : Vec F S400x10000 .bf16) (xs : Vec F S10000x128 .bf16)

theorem out2_B_eq :
    out2_B c i arg1 harg1 arg2 harg2 arg3 harg3 arg4 harg4 arg5 harg5 arg6 harg6 hc0 x0 x1 x2 x3 xs = k2_pay2 x3 xs x2 := by
  unfold out2_B
  rw [View.read_writes_eq_canon _ _ _ (cover2_B c i arg1 harg1 arg2 harg2 arg3 harg3 arg4 harg4 arg5 harg5 arg6 harg6 hc0 x0 x1 x2 x3 xs)]
  unfold kernelRun2_B
  dsimp only
  sl_unfold_words
  rw [View.canon_unit_zero hz2]
  simp only [View.readAt_eq_ld, harg3.read_unread, harg4.read_unread, harg6.read_unread,
    View.ld_unit_zero (S := S10000x128) hz2, View.ld_unit_zero (S := S1x128) hz2, View.ld_unit_zero (S := S400x10000) hz2]

end

end

variable (V : (c : Dev nD) → (b : Ref sig .tc) → Buf (Elt F) ((c : Thread nD τ).loc b))

theorem scr2_eq (c : Dev nD) : scr2 V c = k2_pay1 (iblk2 V c 0 t0_2) (iblk2 V c 1 t0_2) := by
  unfold scr2
  exact sout2_A_eq c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) scM2 (Memref.isWhole_whole _) hc2_first (iblk2 V c 0 t0_2) (iblk2 V c 1 t0_2) (iblk2 V c 2 t0_2) (iblk2 V c 3 t0_2)

theorem outAt2_eq (c : Dev nD) (t : Fin cfg2.N) :
    outAt2 V c t = k2_pay2 (iblk2 V c 3 t) (k2_pay1 (iblk2 V c 0 t0_2) (iblk2 V c 1 t0_2)) (iblk2 V c 2 t) := by
  by_cases h : t.val = 0
  · obtain rfl : t = t0_2 := Fin.ext h
    rw [outAt2_first V c t0_2 rfl]
    exact out2_A_eq c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) scM2 (Memref.isWhole_whole _) ((hcond2 t0_2).mpr rfl) (iblk2 V c 0 t0_2) (iblk2 V c 1 t0_2) (iblk2 V c 2 t0_2) (iblk2 V c 3 t0_2)
  · rw [outAt2_later V c t h]
    refine (out2_B_eq c (grid2.coords t) (ms2_0 t) (hs2_0 t) (ms2_1 t) (hs2_1 t) (ms2_2 t) (hs2_2 t) (ms2_3 t) (hs2_3 t) (ms2_4 t) (hs2_4 t) scM2 (Memref.isWhole_whole _) (fun hc => h ((hcond2 t).mp hc)) (iblk2 V c 0 t) (iblk2 V c 1 t) (iblk2 V c 2 t) (iblk2 V c 3 t) (scr2 V c)).trans ?_
    rw [scr2_eq]

end Pieces

section Array

variable (V : (c : Dev nD) → (b : Ref sig .tc) → Buf (Elt Ideal) ((c : Thread nD τ).loc b))

abbrev adjArr2 (c : Dev nD) : Vec Ideal S10000x10000 .bf16 := V c (Pipeline.arrRef spec2 3)
abbrev featArr2 (c : Dev nD) : Vec Ideal S10000x128 .f32 := V c (Pipeline.arrRef spec2 0)
abbrev wgtArr2 (c : Dev nD) : Vec Ideal S128x128 .f32 := V c (Pipeline.arrRef spec2 1)
abbrev biasArr2 (c : Dev nD) : Vec Ideal S1x128 .f32 := V c (Pipeline.arrRef spec2 2)

abbrev layer2 (c : Dev nD) : Vec Ideal S10000x128 .f32 :=
  Cert.Spec.hid (adjArr2 V c) (featArr2 V c) (wgtArr2 V c) (fun n => biasArr2 V c (ix2 0 n))

theorem idx_facts2 : ∀ t : Fin cfg2.N,
    (∀ a, win2_0.index t a * win2_0.size a = 0) ∧ (∀ a, win2_1.index t a * win2_1.size a = 0)
    ∧ (∀ a, win2_2.index t a * win2_2.size a = 0)
    ∧ (∀ a, win2_3.index t a * win2_3.size a = ![400 * t.val, 0] a)
    ∧ (∀ a, win2_4.index t a * win2_4.size a = ![400 * t.val, 0] a) :=
  (by decide +kernel : ∀ t : Fin grid2.N, _)

theorem flushed2_eq (c : Dev nD) (t : Fin cfg2.N) :
    (dat2 (F := Ideal) V c).flushed 4 t = ((cfg2.win 4).blk t).view.read (Elt Ideal) (layer2 V c) := by
  obtain ⟨-, -, o2, o3, o4⟩ := idx_facts2 t
  obtain ⟨o0, o1, -⟩ := idx_facts2 t0_2
  show (cfg2.win 4).cut (grid2.coords t) ((dat2 V c).after 4 t) = _
  rw [after2_4, outAt2_eq]
  refine funext fun (y : S400x128.Idx) => ?_
  obtain ⟨r, n, rfl⟩ : ∃ (r : Fin 400) (n : Fin 128), y = ix2 r n := ⟨y 0, y 1, eq_ix2 y⟩
  have hN : cfg2.N = 25 := N_2
  have hR : 400 * t.val + r.val < 10000 := by have := t.isLt; have := r.isLt; omega
  refine (Payload.pay2_2 (iblk2 V c 3 t) (k2_pay1 (F := Ideal) (iblk2 V c 0 t0_2) (iblk2 V c 1 t0_2)) (iblk2 V c 2 t) r n).trans ?_
  refine Eq.trans ?_ (congrArg (layer2 V c)
    (Payload.blk_emb win2_4 t (ix2 r n) (ix2 ⟨_, hR⟩ n) _ o4 (Fin.forall_fin_two.2 ⟨rfl, Nat.zero_add _⟩))).symm
  refine congrArg₂ max (congrArg₂ (· + ·) (Finset.sum_congr rfl fun k _ => congrArg₂ (· * ·)
    (congrArg (adjArr2 V c) (Payload.blk_emb win2_3 t (ix2 r k) (ix2 ⟨_, hR⟩ k) _ o3 (Fin.forall_fin_two.2 ⟨rfl, Nat.zero_add _⟩))) ?_)
    (congrArg (biasArr2 V c) (Payload.blk_emb win2_2 t (ix2 0 n) (ix2 0 n) _ o2 fun _ => Nat.zero_add _))) rfl
  refine (Payload.pay1_2 (iblk2 V c 0 t0_2) (iblk2 V c 1 t0_2) k n).trans ?_
  exact Finset.sum_congr rfl fun j _ => congrArg₂ (· * ·)
    (congrArg (featArr2 V c) (Payload.blk_emb win2_0 t0_2 (ix2 k j) (ix2 k j) _ o0 fun _ => Nat.zero_add _))
    (congrArg (wgtArr2 V c) (Payload.blk_emb win2_1 t0_2 (ix2 j n) (ix2 j n) _ o1 fun _ => Nat.zero_add _))

theorem cover2 (i : S10000x128.Idx) :
    ∃ t : Fin cfg2.N, (cfg2.win 4).flush t = true ∧ i ∈ ((cfg2.win 4).blk t).view.set := by
  have hN : cfg2.N = 25 := N_2
  have hi0 : (i 0).val < 10000 := (i 0).isLt
  have hi1 : (i 1).val < 128 := (i 1).isLt
  let t : Fin cfg2.N := ⟨(i 0).val / 400, by rw [hN]; omega⟩
  refine ⟨t, flush2_4 t, ?_⟩
  show i ∈ ((View.whole (Pipeline.arrRef spec2 4)).slice (win2_4.rect t)).set
  rw [View.set_slice_whole, Rect.mem_set_unit]
  intro a
  rw [(idx_facts2 t).2.2.2.2 a]
  match a with
  | ⟨0, _⟩ => show 400 * ((i 0).val / 400) ≤ (i 0).val ∧ (i 0).val < 400 * ((i 0).val / 400) + 400; omega
  | ⟨1, _⟩ => show 0 ≤ (i 1).val ∧ (i 1).val < 0 + 128; omega

theorem arrAt2_eq (c : Dev nD) :
    (dat2 (F := Ideal) V c).arrAt 4 cfg2.N
      = Cert.Spec.hid (V c (Pipeline.arrRef spec2 3)) (V c (Pipeline.arrRef spec2 0)) (V c (Pipeline.arrRef spec2 1))
          (fun n => V c (Pipeline.arrRef spec2 2) (ValueIdx.ix2 0 n)) :=
  (dat2 (F := Ideal) V c).arrAt_eq_of_cover 4 (layer2 V c) (fun t _ => flushed2_eq V c t) cover2

end Array

end Cert.KernelIdeal.Hand

end
-- ==== Proof.KI.Value3.lean ====
import proofs.«136297_g53695681135103_cont_9to1c4b_48_2_alg».proof.Proof.KI.Region3
import proofs.«136297_g53695681135103_cont_9to1c4b_48_2_alg».proof.Proof.KI.Payload
import proofs.«136297_g53695681135103_cont_9to1c4b_48_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

open scoped BigOperators

section Pieces

variable {F : FTy → Type} [FloatOps F]

theorem hz3 : (![0, 0] : Fin 2 → Nat) = fun _ => 0 := funext fun a => by fin_cases a <;> rfl

section

variable (c : Dev nD) (i : grid3.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond3 i) (x0 : Vec F S10000x128 .f32) (x1 : Vec F S128x128 .f32) (x2 : Vec F S1x128 .f32) (x3 : Vec F S400x10000 .bf16)

theorem sout3_A_eq :
    sout3_A c i arg1 harg1 arg2 harg2 arg3 harg3 arg4 harg4 arg5 harg5 arg6 harg6 hc0 x0 x1 x2 x3 = k3_pay1 x0 x1 := by
  unfold sout3_A
  rw [View.read_writes_eq_canon _ _ _ (scover3_A c i arg1 harg1 arg2 harg2 arg3 harg3 arg4 harg4 arg5 harg5 arg6 harg6 hc0 x0 x1 x2 x3)]
  unfold kernelRun3_A
  dsimp only
  sl_unfold_words
  rw [View.canon_unit_zero hz3]
  simp only [View.readAt_eq_ld, harg1.read_unread, harg2.read_unread, View.ld_unit_zero (S := S10000x128) hz3, View.ld_unit_zero (S := S128x128) hz3]

theorem out3_A_eq :
    out3_A c i arg1 harg1 arg2 harg2 arg3 harg3 arg4 harg4 arg5 harg5 arg6 harg6 hc0 x0 x1 x2 x3 = k3_pay2 x3 (k3_pay1 x0 x1) x2 := by
  unfold out3_A
  rw [View.read_writes_eq_canon _ _ _ (cover3_A c i arg1 harg1 arg2 harg2 arg3 harg3 arg4 harg4 arg5 harg5 arg6 harg6 hc0 x0 x1 x2 x3)]
  unfold kernelRun3_A
  dsimp only
  sl_unfold_words
  rw [View.canon_unit_zero hz3]
  simp only [View.readAt_eq_ld, harg1.read_unread, harg2.read_unread, harg3.read_unread, harg4.read_unread,
    View.readCov_unit_zero (S := S10000x128) _ hz3,
    View.ld_unit_zero (S := S10000x128) hz3, View.ld_unit_zero (S := S128x128) hz3, View.ld_unit_zero (S := S1x128) hz3,
    View.ld_unit_zero (S := S400x10000) hz3]

end

section

variable (hc0 : ¬cond3 i) (x0 : Vec F S10000x128 .f32) (x1 : Vec F S128x128 .f32) (x2 : Vec F S1x128 .f32) (x3 : Vec F S400x10000 .bf16) (xs : Vec F S10000x128 .bf16)

theorem out3_B_eq :
    out3_B c i arg1 harg1 arg2 harg2 arg3 harg3 arg4 harg4 arg5 harg5 arg6 harg6 hc0 x0 x1 x2 x3 xs = k3_pay2 x3 xs x2 := by
  unfold out3_B
  rw [View.read_writes_eq_canon _ _ _ (cover3_B c i arg1 harg1 arg2 harg2 arg3 harg3 arg4 harg4 arg5 harg5 arg6 harg6 hc0 x0 x1 x2 x3 xs)]
  unfold kernelRun3_B
  dsimp only
  sl_unfold_words
  rw [View.canon_unit_zero hz3]
  simp only [View.readAt_eq_ld, harg3.read_unread, harg4.read_unread, harg6.read_unread,
    View.ld_unit_zero (S := S10000x128) hz3, View.ld_unit_zero (S := S1x128) hz3, View.ld_unit_zero (S := S400x10000) hz3]

end

end

variable (V : (c : Dev nD) → (b : Ref sig .tc) → Buf (Elt F) ((c : Thread nD τ).loc b))

theorem scr3_eq (c : Dev nD) : scr3 V c = k3_pay1 (iblk3 V c 0 t0_3) (iblk3 V c 1 t0_3) := by
  unfold scr3
  exact sout3_A_eq c (grid3.coords t0_3) (ms3_0 t0_3) (hs3_0 t0_3) (ms3_1 t0_3) (hs3_1 t0_3) (ms3_2 t0_3) (hs3_2 t0_3) (ms3_3 t0_3) (hs3_3 t0_3) (ms3_4 t0_3) (hs3_4 t0_3) scM3 (Memref.isWhole_whole _) hc3_first (iblk3 V c 0 t0_3) (iblk3 V c 1 t0_3) (iblk3 V c 2 t0_3) (iblk3 V c 3 t0_3)

theorem outAt3_eq (c : Dev nD) (t : Fin cfg3.N) :
    outAt3 V c t = k3_pay2 (iblk3 V c 3 t) (k3_pay1 (iblk3 V c 0 t0_3) (iblk3 V c 1 t0_3)) (iblk3 V c 2 t) := by
  by_cases h : t.val = 0
  · obtain rfl : t = t0_3 := Fin.ext h
    rw [outAt3_first V c t0_3 rfl]
    exact out3_A_eq c (grid3.coords t0_3) (ms3_0 t0_3) (hs3_0 t0_3) (ms3_1 t0_3) (hs3_1 t0_3) (ms3_2 t0_3) (hs3_2 t0_3) (ms3_3 t0_3) (hs3_3 t0_3) (ms3_4 t0_3) (hs3_4 t0_3) scM3 (Memref.isWhole_whole _) ((hcond3 t0_3).mpr rfl) (iblk3 V c 0 t0_3) (iblk3 V c 1 t0_3) (iblk3 V c 2 t0_3) (iblk3 V c 3 t0_3)
  · rw [outAt3_later V c t h]
    refine (out3_B_eq c (grid3.coords t) (ms3_0 t) (hs3_0 t) (ms3_1 t) (hs3_1 t) (ms3_2 t) (hs3_2 t) (ms3_3 t) (hs3_3 t) (ms3_4 t) (hs3_4 t) scM3 (Memref.isWhole_whole _) (fun hc => h ((hcond3 t).mp hc)) (iblk3 V c 0 t) (iblk3 V c 1 t) (iblk3 V c 2 t) (iblk3 V c 3 t) (scr3 V c)).trans ?_
    rw [scr3_eq]

end Pieces

section Array

variable (V : (c : Dev nD) → (b : Ref sig .tc) → Buf (Elt Ideal) ((c : Thread nD τ).loc b))

abbrev adjArr3 (c : Dev nD) : Vec Ideal S10000x10000 .bf16 := V c (Pipeline.arrRef spec3 3)
abbrev featArr3 (c : Dev nD) : Vec Ideal S10000x128 .f32 := V c (Pipeline.arrRef spec3 0)
abbrev wgtArr3 (c : Dev nD) : Vec Ideal S128x128 .f32 := V c (Pipeline.arrRef spec3 1)
abbrev biasArr3 (c : Dev nD) : Vec Ideal S1x128 .f32 := V c (Pipeline.arrRef spec3 2)

abbrev layer3 (c : Dev nD) : Vec Ideal S10000x128 .f32 :=
  Cert.Spec.hid (adjArr3 V c) (featArr3 V c) (wgtArr3 V c) (fun n => biasArr3 V c (ix2 0 n))

theorem idx_facts3 : ∀ t : Fin cfg3.N,
    (∀ a, win3_0.index t a * win3_0.size a = 0) ∧ (∀ a, win3_1.index t a * win3_1.size a = 0)
    ∧ (∀ a, win3_2.index t a * win3_2.size a = 0)
    ∧ (∀ a, win3_3.index t a * win3_3.size a = ![400 * t.val, 0] a)
    ∧ (∀ a, win3_4.index t a * win3_4.size a = ![400 * t.val, 0] a) :=
  (by decide +kernel : ∀ t : Fin grid3.N, _)

theorem flushed3_eq (c : Dev nD) (t : Fin cfg3.N) :
    (dat3 (F := Ideal) V c).flushed 4 t = ((cfg3.win 4).blk t).view.read (Elt Ideal) (layer3 V c) := by
  obtain ⟨-, -, o2, o3, o4⟩ := idx_facts3 t
  obtain ⟨o0, o1, -⟩ := idx_facts3 t0_3
  show (cfg3.win 4).cut (grid3.coords t) ((dat3 V c).after 4 t) = _
  rw [after3_4, outAt3_eq]
  refine funext fun (y : S400x128.Idx) => ?_
  obtain ⟨r, n, rfl⟩ : ∃ (r : Fin 400) (n : Fin 128), y = ix2 r n := ⟨y 0, y 1, eq_ix2 y⟩
  have hN : cfg3.N = 25 := N_3
  have hR : 400 * t.val + r.val < 10000 := by have := t.isLt; have := r.isLt; omega
  refine (Payload.pay2_3 (iblk3 V c 3 t) (k3_pay1 (F := Ideal) (iblk3 V c 0 t0_3) (iblk3 V c 1 t0_3)) (iblk3 V c 2 t) r n).trans ?_
  refine Eq.trans ?_ (congrArg (layer3 V c)
    (Payload.blk_emb win3_4 t (ix2 r n) (ix2 ⟨_, hR⟩ n) _ o4 (Fin.forall_fin_two.2 ⟨rfl, Nat.zero_add _⟩))).symm
  refine congrArg₂ max (congrArg₂ (· + ·) (Finset.sum_congr rfl fun k _ => congrArg₂ (· * ·)
    (congrArg (adjArr3 V c) (Payload.blk_emb win3_3 t (ix2 r k) (ix2 ⟨_, hR⟩ k) _ o3 (Fin.forall_fin_two.2 ⟨rfl, Nat.zero_add _⟩))) ?_)
    (congrArg (biasArr3 V c) (Payload.blk_emb win3_2 t (ix2 0 n) (ix2 0 n) _ o2 fun _ => Nat.zero_add _))) rfl
  refine (Payload.pay1_3 (iblk3 V c 0 t0_3) (iblk3 V c 1 t0_3) k n).trans ?_
  exact Finset.sum_congr rfl fun j _ => congrArg₂ (· * ·)
    (congrArg (featArr3 V c) (Payload.blk_emb win3_0 t0_3 (ix2 k j) (ix2 k j) _ o0 fun _ => Nat.zero_add _))
    (congrArg (wgtArr3 V c) (Payload.blk_emb win3_1 t0_3 (ix2 j n) (ix2 j n) _ o1 fun _ => Nat.zero_add _))

theorem cover3 (i : S10000x128.Idx) :
    ∃ t : Fin cfg3.N, (cfg3.win 4).flush t = true ∧ i ∈ ((cfg3.win 4).blk t).view.set := by
  have hN : cfg3.N = 25 := N_3
  have hi0 : (i 0).val < 10000 := (i 0).isLt
  have hi1 : (i 1).val < 128 := (i 1).isLt
  let t : Fin cfg3.N := ⟨(i 0).val / 400, by rw [hN]; omega⟩
  refine ⟨t, flush3_4 t, ?_⟩
  show i ∈ ((View.whole (Pipeline.arrRef spec3 4)).slice (win3_4.rect t)).set
  rw [View.set_slice_whole, Rect.mem_set_unit]
  intro a
  rw [(idx_facts3 t).2.2.2.2 a]
  match a with
  | ⟨0, _⟩ => show 400 * ((i 0).val / 400) ≤ (i 0).val ∧ (i 0).val < 400 * ((i 0).val / 400) + 400; omega
  | ⟨1, _⟩ => show 0 ≤ (i 1).val ∧ (i 1).val < 0 + 128; omega

theorem arrAt3_eq (c : Dev nD) :
    (dat3 (F := Ideal) V c).arrAt 4 cfg3.N
      = Cert.Spec.hid (V c (Pipeline.arrRef spec3 3)) (V c (Pipeline.arrRef spec3 0)) (V c (Pipeline.arrRef spec3 1))
          (fun n => V c (Pipeline.arrRef spec3 2) (ValueIdx.ix2 0 n)) :=
  (dat3 (F := Ideal) V c).arrAt_eq_of_cover 4 (layer3 V c) (fun t _ => flushed3_eq V c t) cover3

end Array

end Cert.KernelIdeal.Hand

end
-- ==== Proof.KI.Value4.lean ====
import proofs.«136297_g53695681135103_cont_9to1c4b_48_2_alg».proof.Proof.KI.Region4
import proofs.«136297_g53695681135103_cont_9to1c4b_48_2_alg».proof.Proof.KI.Payload
import proofs.«136297_g53695681135103_cont_9to1c4b_48_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

open scoped BigOperators

section Pieces

variable {F : FTy → Type} [FloatOps F]

theorem hz4 : (![0, 0] : Fin 2 → Nat) = fun _ => 0 := funext fun a => by fin_cases a <;> rfl

section

variable (c : Dev nD) (i : grid4.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond4 i) (x0 : Vec F S10000x128 .f32) (x1 : Vec F S128x128 .f32) (x2 : Vec F S1x128 .f32) (x3 : Vec F S400x10000 .bf16)

theorem sout4_A_eq :
    sout4_A c i arg1 harg1 arg2 harg2 arg3 harg3 arg4 harg4 arg5 harg5 arg6 harg6 hc0 x0 x1 x2 x3 = k4_pay1 x0 x1 := by
  unfold sout4_A
  rw [View.read_writes_eq_canon _ _ _ (scover4_A c i arg1 harg1 arg2 harg2 arg3 harg3 arg4 harg4 arg5 harg5 arg6 harg6 hc0 x0 x1 x2 x3)]
  unfold kernelRun4_A
  dsimp only
  sl_unfold_words
  rw [View.canon_unit_zero hz4]
  simp only [View.readAt_eq_ld, harg1.read_unread, harg2.read_unread, View.ld_unit_zero (S := S10000x128) hz4, View.ld_unit_zero (S := S128x128) hz4]

theorem out4_A_eq :
    out4_A c i arg1 harg1 arg2 harg2 arg3 harg3 arg4 harg4 arg5 harg5 arg6 harg6 hc0 x0 x1 x2 x3 = k4_pay2 x3 (k4_pay1 x0 x1) x2 := by
  unfold out4_A
  rw [View.read_writes_eq_canon _ _ _ (cover4_A c i arg1 harg1 arg2 harg2 arg3 harg3 arg4 harg4 arg5 harg5 arg6 harg6 hc0 x0 x1 x2 x3)]
  unfold kernelRun4_A
  dsimp only
  sl_unfold_words
  rw [View.canon_unit_zero hz4]
  simp only [View.readAt_eq_ld, harg1.read_unread, harg2.read_unread, harg3.read_unread, harg4.read_unread,
    View.readCov_unit_zero (S := S10000x128) _ hz4,
    View.ld_unit_zero (S := S10000x128) hz4, View.ld_unit_zero (S := S128x128) hz4, View.ld_unit_zero (S := S1x128) hz4,
    View.ld_unit_zero (S := S400x10000) hz4]

end

section

variable (hc0 : ¬cond4 i) (x0 : Vec F S10000x128 .f32) (x1 : Vec F S128x128 .f32) (x2 : Vec F S1x128 .f32) (x3 : Vec F S400x10000 .bf16) (xs : Vec F S10000x128 .bf16)

theorem out4_B_eq :
    out4_B c i arg1 harg1 arg2 harg2 arg3 harg3 arg4 harg4 arg5 harg5 arg6 harg6 hc0 x0 x1 x2 x3 xs = k4_pay2 x3 xs x2 := by
  unfold out4_B
  rw [View.read_writes_eq_canon _ _ _ (cover4_B c i arg1 harg1 arg2 harg2 arg3 harg3 arg4 harg4 arg5 harg5 arg6 harg6 hc0 x0 x1 x2 x3 xs)]
  unfold kernelRun4_B
  dsimp only
  sl_unfold_words
  rw [View.canon_unit_zero hz4]
  simp only [View.readAt_eq_ld, harg3.read_unread, harg4.read_unread, harg6.read_unread,
    View.ld_unit_zero (S := S10000x128) hz4, View.ld_unit_zero (S := S1x128) hz4, View.ld_unit_zero (S := S400x10000) hz4]

end

end

variable (V : (c : Dev nD) → (b : Ref sig .tc) → Buf (Elt F) ((c : Thread nD τ).loc b))

theorem scr4_eq (c : Dev nD) : scr4 V c = k4_pay1 (iblk4 V c 0 t0_4) (iblk4 V c 1 t0_4) := by
  unfold scr4
  exact sout4_A_eq c (grid4.coords t0_4) (ms4_0 t0_4) (hs4_0 t0_4) (ms4_1 t0_4) (hs4_1 t0_4) (ms4_2 t0_4) (hs4_2 t0_4) (ms4_3 t0_4) (hs4_3 t0_4) (ms4_4 t0_4) (hs4_4 t0_4) scM4 (Memref.isWhole_whole _) hc4_first (iblk4 V c 0 t0_4) (iblk4 V c 1 t0_4) (iblk4 V c 2 t0_4) (iblk4 V c 3 t0_4)

theorem outAt4_eq (c : Dev nD) (t : Fin cfg4.N) :
    outAt4 V c t = k4_pay2 (iblk4 V c 3 t) (k4_pay1 (iblk4 V c 0 t0_4) (iblk4 V c 1 t0_4)) (iblk4 V c 2 t) := by
  by_cases h : t.val = 0
  · obtain rfl : t = t0_4 := Fin.ext h
    rw [outAt4_first V c t0_4 rfl]
    exact out4_A_eq c (grid4.coords t0_4) (ms4_0 t0_4) (hs4_0 t0_4) (ms4_1 t0_4) (hs4_1 t0_4) (ms4_2 t0_4) (hs4_2 t0_4) (ms4_3 t0_4) (hs4_3 t0_4) (ms4_4 t0_4) (hs4_4 t0_4) scM4 (Memref.isWhole_whole _) ((hcond4 t0_4).mpr rfl) (iblk4 V c 0 t0_4) (iblk4 V c 1 t0_4) (iblk4 V c 2 t0_4) (iblk4 V c 3 t0_4)
  · rw [outAt4_later V c t h]
    refine (out4_B_eq c (grid4.coords t) (ms4_0 t) (hs4_0 t) (ms4_1 t) (hs4_1 t) (ms4_2 t) (hs4_2 t) (ms4_3 t) (hs4_3 t) (ms4_4 t) (hs4_4 t) scM4 (Memref.isWhole_whole _) (fun hc => h ((hcond4 t).mp hc)) (iblk4 V c 0 t) (iblk4 V c 1 t) (iblk4 V c 2 t) (iblk4 V c 3 t) (scr4 V c)).trans ?_
    rw [scr4_eq]

end Pieces

section Array

variable (V : (c : Dev nD) → (b : Ref sig .tc) → Buf (Elt Ideal) ((c : Thread nD τ).loc b))

abbrev adjArr4 (c : Dev nD) : Vec Ideal S10000x10000 .bf16 := V c (Pipeline.arrRef spec4 3)
abbrev featArr4 (c : Dev nD) : Vec Ideal S10000x128 .f32 := V c (Pipeline.arrRef spec4 0)
abbrev wgtArr4 (c : Dev nD) : Vec Ideal S128x128 .f32 := V c (Pipeline.arrRef spec4 1)
abbrev biasArr4 (c : Dev nD) : Vec Ideal S1x128 .f32 := V c (Pipeline.arrRef spec4 2)

abbrev layer4 (c : Dev nD) : Vec Ideal S10000x128 .f32 :=
  Cert.Spec.hid (adjArr4 V c) (featArr4 V c) (wgtArr4 V c) (fun n => biasArr4 V c (ix2 0 n))

theorem idx_facts4 : ∀ t : Fin cfg4.N,
    (∀ a, win4_0.index t a * win4_0.size a = 0) ∧ (∀ a, win4_1.index t a * win4_1.size a = 0)
    ∧ (∀ a, win4_2.index t a * win4_2.size a = 0)
    ∧ (∀ a, win4_3.index t a * win4_3.size a = ![400 * t.val, 0] a)
    ∧ (∀ a, win4_4.index t a * win4_4.size a = ![400 * t.val, 0] a) :=
  (by decide +kernel : ∀ t : Fin grid4.N, _)

theorem flushed4_eq (c : Dev nD) (t : Fin cfg4.N) :
    (dat4 (F := Ideal) V c).flushed 4 t = ((cfg4.win 4).blk t).view.read (Elt Ideal) (layer4 V c) := by
  obtain ⟨-, -, o2, o3, o4⟩ := idx_facts4 t
  obtain ⟨o0, o1, -⟩ := idx_facts4 t0_4
  show (cfg4.win 4).cut (grid4.coords t) ((dat4 V c).after 4 t) = _
  rw [after4_4, outAt4_eq]
  refine funext fun (y : S400x128.Idx) => ?_
  obtain ⟨r, n, rfl⟩ : ∃ (r : Fin 400) (n : Fin 128), y = ix2 r n := ⟨y 0, y 1, eq_ix2 y⟩
  have hN : cfg4.N = 25 := N_4
  have hR : 400 * t.val + r.val < 10000 := by have := t.isLt; have := r.isLt; omega
  refine (Payload.pay2_4 (iblk4 V c 3 t) (k4_pay1 (F := Ideal) (iblk4 V c 0 t0_4) (iblk4 V c 1 t0_4)) (iblk4 V c 2 t) r n).trans ?_
  refine Eq.trans ?_ (congrArg (layer4 V c)
    (Payload.blk_emb win4_4 t (ix2 r n) (ix2 ⟨_, hR⟩ n) _ o4 (Fin.forall_fin_two.2 ⟨rfl, Nat.zero_add _⟩))).symm
  refine congrArg₂ max (congrArg₂ (· + ·) (Finset.sum_congr rfl fun k _ => congrArg₂ (· * ·)
    (congrArg (adjArr4 V c) (Payload.blk_emb win4_3 t (ix2 r k) (ix2 ⟨_, hR⟩ k) _ o3 (Fin.forall_fin_two.2 ⟨rfl, Nat.zero_add _⟩))) ?_)
    (congrArg (biasArr4 V c) (Payload.blk_emb win4_2 t (ix2 0 n) (ix2 0 n) _ o2 fun _ => Nat.zero_add _))) rfl
  refine (Payload.pay1_4 (iblk4 V c 0 t0_4) (iblk4 V c 1 t0_4) k n).trans ?_
  exact Finset.sum_congr rfl fun j _ => congrArg₂ (· * ·)
    (congrArg (featArr4 V c) (Payload.blk_emb win4_0 t0_4 (ix2 k j) (ix2 k j) _ o0 fun _ => Nat.zero_add _))
    (congrArg (wgtArr4 V c) (Payload.blk_emb win4_1 t0_4 (ix2 j n) (ix2 j n) _ o1 fun _ => Nat.zero_add _))

theorem cover4 (i : S10000x128.Idx) :
    ∃ t : Fin cfg4.N, (cfg4.win 4).flush t = true ∧ i ∈ ((cfg4.win 4).blk t).view.set := by
  have hN : cfg4.N = 25 := N_4
  have hi0 : (i 0).val < 10000 := (i 0).isLt
  have hi1 : (i 1).val < 128 := (i 1).isLt
  let t : Fin cfg4.N := ⟨(i 0).val / 400, by rw [hN]; omega⟩
  refine ⟨t, flush4_4 t, ?_⟩
  show i ∈ ((View.whole (Pipeline.arrRef spec4 4)).slice (win4_4.rect t)).set
  rw [View.set_slice_whole, Rect.mem_set_unit]
  intro a
  rw [(idx_facts4 t).2.2.2.2 a]
  match a with
  | ⟨0, _⟩ => show 400 * ((i 0).val / 400) ≤ (i 0).val ∧ (i 0).val < 400 * ((i 0).val / 400) + 400; omega
  | ⟨1, _⟩ => show 0 ≤ (i 1).val ∧ (i 1).val < 0 + 128; omega

theorem arrAt4_eq (c : Dev nD) :
    (dat4 (F := Ideal) V c).arrAt 4 cfg4.N
      = Cert.Spec.hid (V c (Pipeline.arrRef spec4 3)) (V c (Pipeline.arrRef spec4 0)) (V c (Pipeline.arrRef spec4 1))
          (fun n => V c (Pipeline.arrRef spec4 2) (ValueIdx.ix2 0 n)) :=
  (dat4 (F := Ideal) V c).arrAt_eq_of_cover 4 (layer4 V c) (fun t _ => flushed4_eq V c t) cover4

end Array

end Cert.KernelIdeal.Hand

end
-- ==== Proof.KI.Value5.lean ====
import proofs.«136297_g53695681135103_cont_9to1c4b_48_2_alg».proof.Proof.KI.Region5
import proofs.«136297_g53695681135103_cont_9to1c4b_48_2_alg».proof.Proof.KI.Payload
import proofs.«136297_g53695681135103_cont_9to1c4b_48_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section pieces
variable {F : FTy → Type} [FloatOps F]

theorem hz5 : (![0, 0] : Fin 2 → Nat) = fun _ => 0 := funext fun a => by fin_cases a <;> rfl

section

variable (c : Dev nD) (i : grid5.Coords)
  (arg1 : Memref sig .tc .vmem S10000x128 .f32) (harg1 : arg1.IsWhole) (arg2 : Memref sig .tc .vmem S128x40 .f32) (harg2 : arg2.IsWhole)
  (arg3 : Memref sig .tc .vmem S1x40 .f32) (harg3 : arg3.IsWhole) (arg4 : Memref sig .tc .vmem S400x10000 .bf16) (harg4 : arg4.IsWhole)
  (arg5 : Memref sig .tc .vmem S400x40 .f32) (harg5 : arg5.IsWhole) (arg6 : Memref sig .tc .vmem S10000x40 .bf16) (harg6 : arg6.IsWhole)

section

variable (hc0 : cond5 i) (x0 : Vec F S10000x128 .f32) (x1 : Vec F S128x40 .f32) (x2 : Vec F S1x40 .f32) (x3 : Vec F S400x10000 .bf16)

theorem sout5_A_eq :
    sout5_A c i arg1 harg1 arg2 harg2 arg3 harg3 arg4 harg4 arg5 harg5 arg6 harg6 hc0 x0 x1 x2 x3 = k5_pay1 x0 x1 := by
  unfold sout5_A
  rw [View.read_writes_eq_canon _ _ _ (scover5_A c i arg1 harg1 arg2 harg2 arg3 harg3 arg4 harg4 arg5 harg5 arg6 harg6 hc0 x0 x1 x2 x3)]
  unfold kernelRun5_A
  dsimp only
  sl_unfold_words
  rw [View.canon_unit_zero hz5]
  simp only [View.readAt_eq_ld, harg1.read_unread, harg2.read_unread, View.ld_unit_zero (S := S10000x128) hz5, View.ld_unit_zero (S := S128x40) hz5]

theorem out5_A_eq :
    out5_A c i arg1 harg1 arg2 harg2 arg3 harg3 arg4 harg4 arg5 harg5 arg6 harg6 hc0 x0 x1 x2 x3 = k5_pay2 x3 (k5_pay1 x0 x1) x2 := by
  unfold out5_A
  rw [View.read_writes_eq_canon _ _ _ (cover5_A c i arg1 harg1 arg2 harg2 arg3 harg3 arg4 harg4 arg5 harg5 arg6 harg6 hc0 x0 x1 x2 x3)]
  unfold kernelRun5_A
  dsimp only
  sl_unfold_words
  rw [View.canon_unit_zero hz5]
  simp only [View.readAt_eq_ld, harg1.read_unread, harg2.read_unread, harg3.read_unread, harg4.read_unread,
    View.ld_unit_zero (S := S10000x128) hz5, View.ld_unit_zero (S := S128x40) hz5, View.ld_unit_zero (S := S1x40) hz5,
    View.ld_unit_zero (S := S400x10000) hz5, View.readCov_unit_zero (S := S10000x40) _ hz5]

end

section

variable (hc0 : ¬cond5 i) (x0 : Vec F S10000x128 .f32) (x1 : Vec F S128x40 .f32) (x2 : Vec F S1x40 .f32) (x3 : Vec F S400x10000 .bf16) (xs : Vec F S10000x40 .bf16)

theorem out5_B_eq :
    out5_B c i arg1 harg1 arg2 harg2 arg3 harg3 arg4 harg4 arg5 harg5 arg6 harg6 hc0 x0 x1 x2 x3 xs = k5_pay2 x3 xs x2 := by
  unfold out5_B
  rw [View.read_writes_eq_canon _ _ _ (cover5_B c i arg1 harg1 arg2 harg2 arg3 harg3 arg4 harg4 arg5 harg5 arg6 harg6 hc0 x0 x1 x2 x3 xs)]
  unfold kernelRun5_B
  dsimp only
  sl_unfold_words
  rw [View.canon_unit_zero hz5]
  simp only [View.readAt_eq_ld, harg3.read_unread, harg4.read_unread, harg6.read_unread,
    View.ld_unit_zero (S := S1x40) hz5, View.ld_unit_zero (S := S400x10000) hz5, View.ld_unit_zero (S := S10000x40) hz5]

end

end

variable (V : (c : Dev nD) → (b : Ref sig .tc) → Buf (Elt F) ((c : Thread nD τ).loc b))

theorem scr5_eq (c : Dev nD) : scr5 V c = k5_pay1 (iblk5 V c 0 t0_5) (iblk5 V c 1 t0_5) := by
  unfold scr5
  exact sout5_A_eq c (grid5.coords t0_5) (ms5_0 t0_5) (hs5_0 t0_5) (ms5_1 t0_5) (hs5_1 t0_5) (ms5_2 t0_5) (hs5_2 t0_5) (ms5_3 t0_5) (hs5_3 t0_5) (ms5_4 t0_5) (hs5_4 t0_5) scM5 (Memref.isWhole_whole _) hc5_first (iblk5 V c 0 t0_5) (iblk5 V c 1 t0_5) (iblk5 V c 2 t0_5) (iblk5 V c 3 t0_5)

theorem outAt5_eq (c : Dev nD) (t : Fin cfg5.N) :
    outAt5 V c t = k5_pay2 (iblk5 V c 3 t) (k5_pay1 (iblk5 V c 0 t0_5) (iblk5 V c 1 t0_5)) (iblk5 V c 2 t) := by
  by_cases h : t.val = 0
  · obtain rfl : t = t0_5 := Fin.ext h
    rw [outAt5_first V c t0_5 rfl]
    exact out5_A_eq c (grid5.coords t0_5) (ms5_0 t0_5) (hs5_0 t0_5) (ms5_1 t0_5) (hs5_1 t0_5) (ms5_2 t0_5) (hs5_2 t0_5) (ms5_3 t0_5) (hs5_3 t0_5) (ms5_4 t0_5) (hs5_4 t0_5) scM5 (Memref.isWhole_whole _) ((hcond5 t0_5).mpr rfl) (iblk5 V c 0 t0_5) (iblk5 V c 1 t0_5) (iblk5 V c 2 t0_5) (iblk5 V c 3 t0_5)
  · rw [outAt5_later V c t h, scr5_eq V c]
    exact out5_B_eq c (grid5.coords t) (ms5_0 t) (hs5_0 t) (ms5_1 t) (hs5_1 t) (ms5_2 t) (hs5_2 t) (ms5_3 t) (hs5_3 t) (ms5_4 t) (hs5_4 t) scM5 (Memref.isWhole_whole _) (fun hc => h ((hcond5 t).mp hc)) (iblk5 V c 0 t) (iblk5 V c 1 t) (iblk5 V c 2 t) (iblk5 V c 3 t) (k5_pay1 (iblk5 V c 0 t0_5) (iblk5 V c 1 t0_5))

end pieces

section array

variable (V : (c : Dev nD) → (b : Ref sig .tc) → Buf (Elt Ideal) ((c : Thread nD τ).loc b))

abbrev hArr5 (c : Dev nD) : FVec Ideal S10000x128 .f32 := V c (Pipeline.arrRef spec5 0)
abbrev wArr5 (c : Dev nD) : FVec Ideal S128x40 .f32 := V c (Pipeline.arrRef spec5 1)
abbrev bArr5 (c : Dev nD) : FVec Ideal S1x40 .f32 := V c (Pipeline.arrRef spec5 2)
abbrev aArr5 (c : Dev nD) : FVec Ideal S10000x10000 .bf16 := V c (Pipeline.arrRef spec5 3)

abbrev G5 (c : Dev nD) : Cert.Spec.M10000x40 :=
  Cert.Spec.outK (aArr5 V c) (hArr5 V c) (wArr5 V c) (fun n => bArr5 V c (ix2 0 n))

theorem idx_facts5 : ∀ t : Fin cfg5.N,
    (∀ a, win5_0.index t a * win5_0.size a = 0) ∧ (∀ a, win5_1.index t a * win5_1.size a = 0)
    ∧ (∀ a, win5_2.index t a * win5_2.size a = 0)
    ∧ (∀ a, win5_3.index t a * win5_3.size a = ![400 * t.val, 0] a)
    ∧ (∀ a, win5_4.index t a * win5_4.size a = ![400 * t.val, 0] a) :=
  (by decide +kernel : ∀ t : Fin grid5.N, _)

theorem flushed5_eq (c : Dev nD) (t : Fin cfg5.N) :
    (dat5 (F := Ideal) V c).flushed 4 t = ((cfg5.win 4).blk t).view.read (Elt Ideal) (G5 V c) := by
  obtain ⟨-, -, o2, o3, o4⟩ := idx_facts5 t
  obtain ⟨o0, o1, -⟩ := idx_facts5 t0_5
  show (cfg5.win 4).cut (grid5.coords t) ((dat5 (F := Ideal) V c).after 4 t) = _
  rw [after5_4, outAt5_eq]
  refine funext fun (y : S400x40.Idx) => ?_
  obtain ⟨r, n, rfl⟩ : ∃ (r : Fin 400) (n : Fin 40), y = ix2 r n := ⟨y 0, y 1, eq_ix2 y⟩
  have hN : cfg5.N = 25 := N_5
  have hR : 400 * t.val + r.val < 10000 := by have := t.isLt; have := r.isLt; omega
  refine (Payload.pay2_5 (iblk5 V c 3 t) (k5_pay1 (F := Ideal) (iblk5 V c 0 t0_5) (iblk5 V c 1 t0_5)) (iblk5 V c 2 t) r n).trans ?_
  refine Eq.trans ?_ (congrArg (G5 V c)
    (Payload.blk_emb win5_4 t (ix2 r n) (ix2 ⟨_, hR⟩ n) _ o4 (Fin.forall_fin_two.2 ⟨rfl, Nat.zero_add _⟩))).symm
  refine congrArg (fun x => Cert.Spec.lsmK x n) (funext fun n' => ?_)
  refine congrArg₂ (· + ·) (Finset.sum_congr rfl fun k _ => congrArg₂ (· * ·)
    (congrArg (aArr5 V c) (Payload.blk_emb win5_3 t (ix2 r k) (ix2 ⟨_, hR⟩ k) _ o3 (Fin.forall_fin_two.2 ⟨rfl, Nat.zero_add _⟩))) ?_)
    (congrArg (bArr5 V c) (Payload.blk_emb win5_2 t (ix2 0 n') (ix2 0 n') _ o2 fun _ => Nat.zero_add _))
  refine (Payload.pay1_5 (iblk5 V c 0 t0_5) (iblk5 V c 1 t0_5) k n').trans ?_
  exact Finset.sum_congr rfl fun j _ => congrArg₂ (· * ·)
    (congrArg (hArr5 V c) (Payload.blk_emb win5_0 t0_5 (ix2 k j) (ix2 k j) _ o0 fun _ => Nat.zero_add _))
    (congrArg (wArr5 V c) (Payload.blk_emb win5_1 t0_5 (ix2 j n') (ix2 j n') _ o1 fun _ => Nat.zero_add _))

theorem cover5 (i : S10000x40.Idx) : ∃ t : Fin cfg5.N, (cfg5.win 4).flush t = true ∧ i ∈ ((cfg5.win 4).blk t).view.set := by
  have hN : cfg5.N = 25 := N_5
  have hi0 : (i 0).val < 10000 := (i 0).isLt
  have hi1 : (i 1).val < 40 := (i 1).isLt
  let t : Fin cfg5.N := ⟨(i 0).val / 400, by rw [hN]; omega⟩
  refine ⟨t, flush5_4 t, ?_⟩
  show i ∈ ((View.whole (Pipeline.arrRef spec5 4)).slice (win5_4.rect t)).set
  rw [View.set_slice_whole, Rect.mem_set_unit]
  intro a
  rw [(idx_facts5 t).2.2.2.2 a]
  match a with
  | ⟨0, _⟩ => show 400 * ((i 0).val / 400) ≤ (i 0).val ∧ (i 0).val < 400 * ((i 0).val / 400) + 400; omega
  | ⟨1, _⟩ => show 0 ≤ (i 1).val ∧ (i 1).val < 0 + 40; omega

theorem arrAt5_eq (c : Dev nD) :
    (dat5 (F := Ideal) V c).arrAt 4 cfg5.N
      = Cert.Spec.outK (V c (Pipeline.arrRef spec5 3)) (V c (Pipeline.arrRef spec5 0)) (V c (Pipeline.arrRef spec5 1))
          (fun n => V c (Pipeline.arrRef spec5 2) (ValueIdx.ix2 0 n)) :=
  (dat5 (F := Ideal) V c).arrAt_eq_of_cover 4 (G5 V c) (fun t _ => flushed5_eq V c t) cover5

end array

end Cert.KernelIdeal.Hand

end
-- ==== Proof.KI.Value.lean ====
import proofs.«136297_g53695681135103_cont_9to1c4b_48_2_alg».proof.Proof.KI.Run
import proofs.«136297_g53695681135103_cont_9to1c4b_48_2_alg».proof.Proof.KI.Value0
import proofs.«136297_g53695681135103_cont_9to1c4b_48_2_alg».proof.Proof.KI.Value1
import proofs.«136297_g53695681135103_cont_9to1c4b_48_2_alg».proof.Proof.KI.Value2
import proofs.«136297_g53695681135103_cont_9to1c4b_48_2_alg».proof.Proof.KI.Value3
import proofs.«136297_g53695681135103_cont_9to1c4b_48_2_alg».proof.Proof.KI.Value4
import proofs.«136297_g53695681135103_cont_9to1c4b_48_2_alg».proof.Proof.KI.Value5
import proofs.«136297_g53695681135103_cont_9to1c4b_48_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable (m : (ℓ : Loc nD τ sig) → Buf (Elt Ideal) ℓ) (ρ : Dev nD → PrngReg)

theorem congr4 {α β γ δ ε : Type} (f : α → β → γ → δ → ε) {a a' : α} {h h' : β} {w w' : γ} {b b' : δ}
    (ea : a = a') (eh : h = h') (ew : w = w') (eb : b = b') : f a h w b = f a' h' w' b' := by
  subst ea eh ew eb; rfl

theorem adj0 (c : Dev nD) :
    (W1 m ρ c (Proc.devRef .tc main_v0) : Cert.Spec.M10000x10000) = m ((c : Thread nD τ).loc main_arg1) := by
  dsimp only [W1]
  after_results
  exact funext fun i => ValueIdx.truncf_apply (W0 m ρ c (Proc.devRef .tc main_arg1)) bitsLt_bf16_f32 i

theorem adj1 (c : Dev nD) :
    (W3 m ρ c (Proc.devRef .tc main_v0) : Cert.Spec.M10000x10000) = m ((c : Thread nD τ).loc main_arg1) :=
  ((W3_of_ne m ρ c main_v0 (by decide)).trans (W2_keep m ρ c main_v0 (by decide))).trans (adj0 m ρ c)

theorem adj2 (c : Dev nD) :
    (W5 m ρ c (Proc.devRef .tc main_v0) : Cert.Spec.M10000x10000) = m ((c : Thread nD τ).loc main_arg1) :=
  ((W5_of_ne m ρ c main_v0 (by decide)).trans (W4_keep m ρ c main_v0 (by decide))).trans (adj1 m ρ c)

theorem adj3 (c : Dev nD) :
    (W7 m ρ c (Proc.devRef .tc main_v0) : Cert.Spec.M10000x10000) = m ((c : Thread nD τ).loc main_arg1) :=
  ((W7_of_ne m ρ c main_v0 (by decide)).trans (W6_keep m ρ c main_v0 (by decide))).trans (adj2 m ρ c)

theorem adj4 (c : Dev nD) :
    (W9 m ρ c (Proc.devRef .tc main_v0) : Cert.Spec.M10000x10000) = m ((c : Thread nD τ).loc main_arg1) :=
  ((W9_of_ne m ρ c main_v0 (by decide)).trans (W8_keep m ρ c main_v0 (by decide))).trans (adj3 m ρ c)

theorem adj5 (c : Dev nD) :
    (W11 m ρ c (Proc.devRef .tc main_v0) : Cert.Spec.M10000x10000) = m ((c : Thread nD τ).loc main_arg1) :=
  ((W11_of_ne m ρ c main_v0 (by decide)).trans (W10_keep m ρ c main_v0 (by decide))).trans (adj4 m ρ c)

theorem bias0 (c : Dev nD) (n : Fin 128) :
    (W1 m ρ c (Proc.devRef .tc main_v1) : (⟨2, ![1, 128]⟩ : Shape).Idx → EReal) (ix2 0 n) = m ((c : Thread nD τ).loc main_arg3) (ix1 n) := by
  dsimp only [W1]
  after_results
  exact shapeCast_a_1a_apply (W0 m ρ c (Proc.devRef .tc main_arg3)) shapeCasts_S128_S1x128 0 n

theorem bias1 (c : Dev nD) (n : Fin 128) :
    (W3 m ρ c (Proc.devRef .tc main_v3) : (⟨2, ![1, 128]⟩ : Shape).Idx → EReal) (ix2 0 n) = m ((c : Thread nD τ).loc main_arg5) (ix1 n) := by
  dsimp only [W3]
  after_results
  exact (shapeCast_a_1a_apply (W2 m ρ c (Proc.devRef .tc main_arg5)) shapeCasts_S128_S1x128 0 n).trans (congrFun (W2_arg m ρ c main_arg5 (by decide)) (ix1 n))

theorem bias2 (c : Dev nD) (n : Fin 128) :
    (W5 m ρ c (Proc.devRef .tc main_v5) : (⟨2, ![1, 128]⟩ : Shape).Idx → EReal) (ix2 0 n) = m ((c : Thread nD τ).loc main_arg7) (ix1 n) := by
  dsimp only [W5]
  after_results
  exact (shapeCast_a_1a_apply (W4 m ρ c (Proc.devRef .tc main_arg7)) shapeCasts_S128_S1x128 0 n).trans (congrFun (W4_arg m ρ c main_arg7 (by decide)) (ix1 n))

theorem bias3 (c : Dev nD) (n : Fin 128) :
    (W7 m ρ c (Proc.devRef .tc main_v7) : (⟨2, ![1, 128]⟩ : Shape).Idx → EReal) (ix2 0 n) = m ((c : Thread nD τ).loc main_arg9) (ix1 n) := by
  dsimp only [W7]
  after_results
  exact (shapeCast_a_1a_apply (W6 m ρ c (Proc.devRef .tc main_arg9)) shapeCasts_S128_S1x128 0 n).trans (congrFun (W6_arg m ρ c main_arg9 (by decide)) (ix1 n))

theorem bias4 (c : Dev nD) (n : Fin 128) :
    (W9 m ρ c (Proc.devRef .tc main_v9) : (⟨2, ![1, 128]⟩ : Shape).Idx → EReal) (ix2 0 n) = m ((c : Thread nD τ).loc main_arg11) (ix1 n) := by
  dsimp only [W9]
  after_results
  exact (shapeCast_a_1a_apply (W8 m ρ c (Proc.devRef .tc main_arg11)) shapeCasts_S128_S1x128 0 n).trans (congrFun (W8_arg m ρ c main_arg11 (by decide)) (ix1 n))

theorem bias5 (c : Dev nD) (n : Fin 40) :
    (W11 m ρ c (Proc.devRef .tc main_v11) : (⟨2, ![1, 40]⟩ : Shape).Idx → EReal) (ix2 0 n) = m ((c : Thread nD τ).loc main_arg13) (ix1 n) := by
  dsimp only [W11]
  after_results
  exact (shapeCast_a_1a_apply (W10 m ρ c (Proc.devRef .tc main_arg13)) shapeCasts_S40_S1x40 0 n).trans (congrFun (W10_arg m ρ c main_arg13 (by decide)) (ix1 n))

abbrev lay1 (c : Dev nD) : Cert.Spec.M10000x128 :=
  Cert.Spec.hid (m ((c : Thread nD τ).loc main_arg1)) (m ((c : Thread nD τ).loc main_arg0)) (m ((c : Thread nD τ).loc main_arg2)) fun n => m ((c : Thread nD τ).loc main_arg3) (ix1 n)
abbrev lay2 (c : Dev nD) : Cert.Spec.M10000x128 :=
  Cert.Spec.hid (m ((c : Thread nD τ).loc main_arg1)) (lay1 m c) (m ((c : Thread nD τ).loc main_arg4)) fun n => m ((c : Thread nD τ).loc main_arg5) (ix1 n)
abbrev lay3 (c : Dev nD) : Cert.Spec.M10000x128 :=
  Cert.Spec.hid (m ((c : Thread nD τ).loc main_arg1)) (lay2 m c) (m ((c : Thread nD τ).loc main_arg6)) fun n => m ((c : Thread nD τ).loc main_arg7) (ix1 n)
abbrev lay4 (c : Dev nD) : Cert.Spec.M10000x128 :=
  Cert.Spec.hid (m ((c : Thread nD τ).loc main_arg1)) (lay3 m c) (m ((c : Thread nD τ).loc main_arg8)) fun n => m ((c : Thread nD τ).loc main_arg9) (ix1 n)
abbrev lay5 (c : Dev nD) : Cert.Spec.M10000x128 :=
  Cert.Spec.hid (m ((c : Thread nD τ).loc main_arg1)) (lay4 m c) (m ((c : Thread nD τ).loc main_arg10)) fun n => m ((c : Thread nD τ).loc main_arg11) (ix1 n)

theorem inp1 (c : Dev nD) : (W3 m ρ c (Proc.devRef .tc main_v2) : Cert.Spec.M10000x128) = lay1 m c :=
  (W3_of_ne m ρ c main_v2 (by decide)).trans <| (W2_arr m ρ c 4).trans <| (arrAt0_eq (V1 m ρ) c).trans <|
    congr4 Cert.Spec.hid (adj0 m ρ c) (W1_arg m ρ c main_arg0 (by decide)) (W1_arg m ρ c main_arg2 (by decide)) (funext fun n => bias0 m ρ c n)

theorem inp2 (c : Dev nD) : (W5 m ρ c (Proc.devRef .tc main_v4) : Cert.Spec.M10000x128) = lay2 m c :=
  (W5_of_ne m ρ c main_v4 (by decide)).trans <| (W4_arr m ρ c 4).trans <| (arrAt1_eq (V3 m ρ) c).trans <|
    congr4 Cert.Spec.hid (adj1 m ρ c) (inp1 m ρ c) (W3_arg m ρ c main_arg4 (by decide)) (funext fun n => bias1 m ρ c n)

theorem inp3 (c : Dev nD) : (W7 m ρ c (Proc.devRef .tc main_v6) : Cert.Spec.M10000x128) = lay3 m c :=
  (W7_of_ne m ρ c main_v6 (by decide)).trans <| (W6_arr m ρ c 4).trans <| (arrAt2_eq (V5 m ρ) c).trans <|
    congr4 Cert.Spec.hid (adj2 m ρ c) (inp2 m ρ c) (W5_arg m ρ c main_arg6 (by decide)) (funext fun n => bias2 m ρ c n)

theorem inp4 (c : Dev nD) : (W9 m ρ c (Proc.devRef .tc main_v8) : Cert.Spec.M10000x128) = lay4 m c :=
  (W9_of_ne m ρ c main_v8 (by decide)).trans <| (W8_arr m ρ c 4).trans <| (arrAt3_eq (V7 m ρ) c).trans <|
    congr4 Cert.Spec.hid (adj3 m ρ c) (inp3 m ρ c) (W7_arg m ρ c main_arg8 (by decide)) (funext fun n => bias3 m ρ c n)

theorem inp5 (c : Dev nD) : (W11 m ρ c (Proc.devRef .tc main_v10) : Cert.Spec.M10000x128) = lay5 m c :=
  (W11_of_ne m ρ c main_v10 (by decide)).trans <| (W10_arr m ρ c 4).trans <| (arrAt4_eq (V9 m ρ) c).trans <|
    congr4 Cert.Spec.hid (adj4 m ρ c) (inp4 m ρ c) (W9_arg m ρ c main_arg10 (by decide)) (funext fun n => bias4 m ρ c n)

theorem out_eq (c : Dev nD) :
    (dat5 (V11 m ρ) c).arrAt 4 cfg5.N
      = Cert.Spec.netK (m ((c : Thread nD τ).loc main_arg0))
          (m ((c : Thread nD τ).loc main_arg1))
          (m ((c : Thread nD τ).loc main_arg2))
          (fun n => m ((c : Thread nD τ).loc main_arg3) (ix1 n))
          (m ((c : Thread nD τ).loc main_arg4))
          (fun n => m ((c : Thread nD τ).loc main_arg5) (ix1 n))
          (m ((c : Thread nD τ).loc main_arg6))
          (fun n => m ((c : Thread nD τ).loc main_arg7) (ix1 n))
          (m ((c : Thread nD τ).loc main_arg8))
          (fun n => m ((c : Thread nD τ).loc main_arg9) (ix1 n))
          (m ((c : Thread nD τ).loc main_arg10))
          (fun n => m ((c : Thread nD τ).loc main_arg11) (ix1 n))
          (m ((c : Thread nD τ).loc main_arg12))
          (fun n => m ((c : Thread nD τ).loc main_arg13) (ix1 n)) :=
  (arrAt5_eq (V11 m ρ) c).trans <|
    congr4 Cert.Spec.outK (adj5 m ρ c) (inp5 m ρ c) (W11_arg m ρ c main_arg12 (by decide)) (funext fun n => bias5 m ρ c n)

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = Cert.Spec.netK (m ((c.tc : Thread nD τ).loc main_arg0))
          (m ((c.tc : Thread nD τ).loc main_arg1))
          (m ((c.tc : Thread nD τ).loc main_arg2))
          (fun n => m ((c.tc : Thread nD τ).loc main_arg3) (ValueIdx.ix1 n))
          (m ((c.tc : Thread nD τ).loc main_arg4))
          (fun n => m ((c.tc : Thread nD τ).loc main_arg5) (ValueIdx.ix1 n))
          (m ((c.tc : Thread nD τ).loc main_arg6))
          (fun n => m ((c.tc : Thread nD τ).loc main_arg7) (ValueIdx.ix1 n))
          (m ((c.tc : Thread nD τ).loc main_arg8))
          (fun n => m ((c.tc : Thread nD τ).loc main_arg9) (ValueIdx.ix1 n))
          (m ((c.tc : Thread nD τ).loc main_arg10))
          (fun n => m ((c.tc : Thread nD τ).loc main_arg11) (ValueIdx.ix1 n))
          (m ((c.tc : Thread nD τ).loc main_arg12))
          (fun n => m ((c.tc : Thread nD τ).loc main_arg13) (ValueIdx.ix1 n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have k (b : Ref sig .tc) hu hb : r.2.mem ((c.tc : Thread nD τ).loc b) = m ((c.tc : Thread nD τ).loc b) :=
      (h c _ (mem_uc b hu)).trans (W12_arg m ρ c b hb)
    ⟨((h c _ (mem_uc main_v12 (by decide))).trans (W12_main_v12 m ρ c)).trans (out_eq m ρ c),
      k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide),
      k main_arg9 (by decide) (by decide), k main_arg10 (by decide) (by decide), k main_arg11 (by decide) (by decide),
      k main_arg12 (by decide) (by decide), k main_arg13 (by decide) (by decide)⟩) (run m ρ)

end Cert.KernelIdeal.Hand

end
-- ==== Proof.KB.Region0Run.lean ====
import proofs.«136297_g53695681135103_cont_9to1c4b_48_2_alg».proof.Proof.Gen.Kernel.Launch
import proofs.«136297_g53695681135103_cont_9to1c4b_48_2_alg».proof.Proof.Gen.Kernel.Skeleton
import proofs.«136297_g53695681135103_cont_9to1c4b_48_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev scM0 : Memref sig .tc .vmem S10000x128 .bf16 := Memref.whole cc0_scratch0
abbrev VO0 : View sig .tc .vmem S400x128 .f32 := (Memref.whole cc0_stg4_0 : Memref sig .tc .vmem S400x128 .f32).view
abbrev VS0 : View sig .tc .vmem S10000x128 .bf16 := scM0.view

abbrev t0_0 : Fin cfg0.N := ⟨0, by decide⟩

theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid0.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun0_A (hc0 : cond0 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer_body i arg1 harg1 arg2 harg2 arg3 harg3 arg4 harg4 arg5 harg5 arg6 harg6) K } :=
  ⟨_, _, fun E K => by
    simp (disch := assumption) only [cc0__layer_body_eq_skeleton, owns_unread]
    unfold cc0__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun0_B (hc0 : ¬cond0 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__layer_body i arg1 harg1 arg2 harg2 arg3 harg3 arg4 harg4 arg5 harg5 arg6 harg6) K } :=
  ⟨_, fun E K => by
    simp (disch := assumption) only [cc0__layer_body_eq_skeleton, owns_unread]
    unfold cc0__layer_body_skel
    iintro ⟨H0, H1, H2, H3, ⟨%d4, H4⟩, HS, Hk⟩
    sl_exec (disch := exact hc0)
    sl_step
    iapply Hk
    iframe
    iexists _; iexact H4⟩

end

end Cert.Kernel.Hand

end
-- ==== Proof.KB.Region0.lean ====
import proofs.«136297_g53695681135103_cont_9to1c4b_48_2_alg».proof.Proof.KB.Region0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid0.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond0 i) (x0 : Vec F S10000x128 .f32) (x1 : Vec F S128x128 .f32) (x2 : Vec F S1x128 .f32) (x3 : Vec F S400x10000 .bf16)

theorem cover0_A (y : S400x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S400x128.size (by sl_kernel_rfl) y

def out0_A : Vec F S400x128 .f32 :=
  VO0.read (Elt F) (VO0.writes (Elt F) VO0.junk (kernelRun0_A c i arg1 harg1 arg2 harg2 arg3 harg3 arg4 harg4 arg5 harg5 arg6 harg6 hc0 x0 x1 x2 x3).1)

theorem scover0_A (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

def sout0_A : Vec F S10000x128 .bf16 :=
  VS0.read (Elt F) (VS0.writes (Elt F) VS0.junk (kernelRun0_A c i arg1 harg1 arg2 harg2 arg3 harg3 arg4 harg4 arg5 harg5 arg6 harg6 hc0 x0 x1 x2 x3).2.1)

end

section

variable (hc0 : ¬cond0 i) (x0 : Vec F S10000x128 .f32) (x1 : Vec F S128x128 .f32) (x2 : Vec F S1x128 .f32) (x3 : Vec F S400x10000 .bf16) (xs : Vec F S10000x128 .bf16)

theorem cover0_B (y : S400x128.Idx) :
    ∃ pc ∈ (kernelRun0_B c i arg1 harg1 arg2 harg2 arg3 harg3 arg4 harg4 arg5 harg5 arg6 harg6 hc0 x0 x1 x2 x3 xs).1, y ∈ pc.1.set :=
  View.cover_of_tiledL (kernelRun0_B c i arg1 harg1 arg2 harg2 arg3 harg3 arg4 harg4 arg5 harg5 arg6 harg6 hc0 x0 x1 x2 x3 xs).1 S400x128.size (by sl_kernel_rfl) y

def out0_B : Vec F S400x128 .f32 :=
  VO0.read (Elt F) (VO0.writes (Elt F) VO0.junk (kernelRun0_B c i arg1 harg1 arg2 harg2 arg3 harg3 arg4 harg4 arg5 harg5 arg6 harg6 hc0 x0 x1 x2 x3 xs).1)

end

end

theorem hc0_first : cond0 (grid0.coords t0_0) := (hcond0 t0_0).mpr rfl

def scr0 (c : Dev nD) : Vec F S10000x128 .bf16 :=
  sout0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hc0_first (iblk0 V c 0 t0_0) (iblk0 V c 1 t0_0) (iblk0 V c 2 t0_0) (iblk0 V c 3 t0_0)

def outAt0 (c : Dev nD) (t : Fin cfg0.N) : Vec F S400x128 .f32 :=
  if h : t.val = 0 then
    out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h) (iblk0 V c 0 t) (iblk0 V c 1 t) (iblk0 V c 2 t) (iblk0 V c 3 t)
  else
    out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0 t).mp hc)) (iblk0 V c 0 t) (iblk0 V c 1 t) (iblk0 V c 2 t) (iblk0 V c 3 t) (scr0 V c)

theorem outAt0_first (c : Dev nD) (t : Fin cfg0.N) (h : t.val = 0) :
    outAt0 V c t = out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h) (iblk0 V c 0 t) (iblk0 V c 1 t) (iblk0 V c 2 t) (iblk0 V c 3 t) := dif_pos h

theorem outAt0_later (c : Dev nD) (t : Fin cfg0.N) (h : ¬t.val = 0) :
    outAt0 V c t = out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0 t).mp hc)) (iblk0 V c 0 t) (iblk0 V c 1 t) (iblk0 V c 2 t) (iblk0 V c 3 t) (scr0 V c) := dif_neg h

def PhiS0 (c : Dev nD) : sProp 𝕄 :=
  iprop(iprop(owns (c : Thread nD τ) scM0 fullShare (scr0 V c) ∗ Pipeline.scopedRestBut (Ix := Unit) (Name := ℕ) (U := UR sig nD τ) (Lvl := ℕ) (Val := Elt F) spec0 c [cc0_scratch0]) ∗ (∃ r, prngReg c r))

def Phi0 (c : Dev nD) (n : ℕ) : sProp 𝕄 := if n = 0 then Pipeline.ΦA spec0 c else PhiS0 V c

theorem Phi0_zero (c : Dev nD) : Phi0 V c 0 = Pipeline.ΦA spec0 c := if_pos rfl
theorem Phi0_pos (c : Dev nD) (n : ℕ) (hn : n ≠ 0) : Phi0 V c n = PhiS0 V c := if_neg hn

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = Phi0 V c (t.val + 1) from rfl,
    show (dat0 V c).Φ t.castSucc = Phi0 V c t.val from rfl,
    Phi0_pos V c (t.val + 1) (Nat.succ_ne_zero _),
    after0_0, after0_1, after0_2, after0_3, after0_4]
  unfold PhiS0
  by_cases hz : t.val = 0
  · obtain rfl : t = t0_0 := Fin.ext hz
    rw [outAt0_first V c t0_0 rfl, show Phi0 V c (t0_0 : Fin cfg0.N).val = Pipeline.ΦA spec0 c from Phi0_zero V c, PhiA0_eq]
    unfold out0_A scr0 sout0_A
    iintro ⟨⟨⟨HS, HR⟩, Hg⟩, Ho, ⟨%d0, H0⟩, ⟨%d1, H1⟩, ⟨%d2, H2⟩, ⟨%d3, H3⟩, ⟨%d4, H4⟩⟩
    iapply ((kernelRun0_A c (grid0.coords t0_0) _ _ _ _ _ _ _ _ _ _ _ _ hc0_first (iblk0 V c 0 t0_0) (iblk0 V c 1 t0_0) (iblk0 V c 2 t0_0) (iblk0 V c 3 t0_0)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover0_A c _ _ _ _ _ _ _ _ _ _ _ _ _ _ _ _ _ _)
    iexists _; isplitr
    swap; · iexact H4
    ipureintro; exact View.read_writes_of_cover _ _ _ _ _ (cover0_A c _ _ _ _ _ _ _ _ _ _ _ _ _ _ _ _ _ _)
  · rw [outAt0_later V c t hz, Phi0_pos V c t.val hz]
    unfold out0_B PhiS0
    iintro ⟨⟨⟨HS, HR⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun hc => hz ((hcond0 t).mp hc)) (iblk0 V c 0 t) (iblk0 V c 1 t) (iblk0 V c 2 t) (iblk0 V c 3 t) (scr0 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover0_B c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Phi0 V c 0 from rfl, Phi0_zero]
  try exact Idealize.SL.BI.Entails.refl _

theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 25 := N_0; omega), PhiA0_eq]
  unfold PhiS0
  iintro ⟨⟨HS, HR⟩, Hg⟩
  iframe HR Hg
  iexists _; iexact HS

end Cert.Kernel.Hand

end
-- ==== Proof.KB.Region1Run.lean ====
import proofs.«136297_g53695681135103_cont_9to1c4b_48_2_alg».proof.Proof.Gen.Kernel.Launch
import proofs.«136297_g53695681135103_cont_9to1c4b_48_2_alg».proof.Proof.Gen.Kernel.Skeleton
import proofs.«136297_g53695681135103_cont_9to1c4b_48_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x10000 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S400x128 .f32 := win1_4.stage (cfg1.slots t 4)
abbrev hs1_4 (t : Fin cfg1.N) : (ms1_4 t).IsWhole := hstage1_4 ((cfg1.slots t 4).cast nbuf1_4)
abbrev scM1 : Memref sig .tc .vmem S10000x128 .bf16 := Memref.whole cc1_scratch0
abbrev VO1 : View sig .tc .vmem S400x128 .f32 := (Memref.whole cc1_stg4_0 : Memref sig .tc .vmem S400x128 .f32).view
abbrev VS1 : View sig .tc .vmem S10000x128 .bf16 := scM1.view

abbrev t0_1 : Fin cfg1.N := ⟨0, by decide⟩

theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid1.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun1_A (hc0 : cond1 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc1__layer_body i arg1 harg1 arg2 harg2 arg3 harg3 arg4 harg4 arg5 harg5 arg6 harg6) K } :=
  ⟨_, _, fun E K => by
    simp (disch := assumption) only [cc1__layer_body_eq_skeleton, owns_unread]
    unfold cc1__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun1_B (hc0 : ¬cond1 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc1__layer_body i arg1 harg1 arg2 harg2 arg3 harg3 arg4 harg4 arg5 harg5 arg6 harg6) K } :=
  ⟨_, fun E K => by
    simp (disch := assumption) only [cc1__layer_body_eq_skeleton, owns_unread]
    unfold cc1__layer_body_skel
    iintro ⟨H0, H1, H2, H3, ⟨%d4, H4⟩, HS, Hk⟩
    sl_exec (disch := exact hc0)
    sl_step
    iapply Hk
    iframe
    iexists _; iexact H4⟩

end

end Cert.Kernel.Hand

end
-- ==== Proof.KB.Region1.lean ====
import proofs.«136297_g53695681135103_cont_9to1c4b_48_2_alg».proof.Proof.KB.Region1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid1.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond1 i) (x0 : Vec F S10000x128 .f32) (x1 : Vec F S128x128 .f32) (x2 : Vec F S1x128 .f32) (x3 : Vec F S400x10000 .bf16)

theorem cover1_A (y : S400x128.Idx) :
    ∃ pc ∈ (kernelRun1_A c i arg1 harg1 arg2 harg2 arg3 harg3 arg4 harg4 arg5 harg5 arg6 harg6 hc0 x0 x1 x2 x3).1, y ∈ pc.1.set :=
  View.cover_of_tiledL (kernelRun1_A c i arg1 harg1 arg2 harg2 arg3 harg3 arg4 harg4 arg5 harg5 arg6 harg6 hc0 x0 x1 x2 x3).1 S400x128.size (by sl_kernel_rfl) y

def out1_A : Vec F S400x128 .f32 :=
  VO1.read (Elt F) (VO1.writes (Elt F) VO1.junk (kernelRun1_A c i arg1 harg1 arg2 harg2 arg3 harg3 arg4 harg4 arg5 harg5 arg6 harg6 hc0 x0 x1 x2 x3).1)

theorem scover1_A (y : S10000x128.Idx) :
    ∃ pc ∈ (kernelRun1_A c i arg1 harg1 arg2 harg2 arg3 harg3 arg4 harg4 arg5 harg5 arg6 harg6 hc0 x0 x1 x2 x3).2.1, y ∈ pc.1.set :=
  View.cover_of_tiledL (kernelRun1_A c i arg1 harg1 arg2 harg2 arg3 harg3 arg4 harg4 arg5 harg5 arg6 harg6 hc0 x0 x1 x2 x3).2.1 S10000x128.size (by sl_kernel_rfl) y

def sout1_A : Vec F S10000x128 .bf16 :=
  VS1.read (Elt F) (VS1.writes (Elt F) VS1.junk (kernelRun1_A c i arg1 harg1 arg2 harg2 arg3 harg3 arg4 harg4 arg5 harg5 arg6 harg6 hc0 x0 x1 x2 x3).2.1)

end

section

variable (hc0 : ¬cond1 i) (x0 : Vec F S10000x128 .f32) (x1 : Vec F S128x128 .f32) (x2 : Vec F S1x128 .f32) (x3 : Vec F S400x10000 .bf16) (xs : Vec F S10000x128 .bf16)

theorem cover1_B (y : S400x128.Idx) :
    ∃ pc ∈ (kernelRun1_B c i arg1 harg1 arg2 harg2 arg3 harg3 arg4 harg4 arg5 harg5 arg6 harg6 hc0 x0 x1 x2 x3 xs).1, y ∈ pc.1.set :=
  View.cover_of_tiledL (kernelRun1_B c i arg1 harg1 arg2 harg2 arg3 harg3 arg4 harg4 arg5 harg5 arg6 harg6 hc0 x0 x1 x2 x3 xs).1 S400x128.size (by sl_kernel_rfl) y

def out1_B : Vec F S400x128 .f32 :=
  VO1.read (Elt F) (VO1.writes (Elt F) VO1.junk (kernelRun1_B c i arg1 harg1 arg2 harg2 arg3 harg3 arg4 harg4 arg5 harg5 arg6 harg6 hc0 x0 x1 x2 x3 xs).1)

end

end

theorem hc1_first : cond1 (grid1.coords t0_1) := (hcond1 t0_1).mpr rfl

def scr1 (c : Dev nD) : Vec F S10000x128 .bf16 :=
  sout1_A c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) hc1_first (iblk1 V c 0 t0_1) (iblk1 V c 1 t0_1) (iblk1 V c 2 t0_1) (iblk1 V c 3 t0_1)

def outAt1 (c : Dev nD) (t : Fin cfg1.N) : Vec F S400x128 .f32 :=
  if h : t.val = 0 then
    out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h) (iblk1 V c 0 t) (iblk1 V c 1 t) (iblk1 V c 2 t) (iblk1 V c 3 t)
  else
    out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (scr1 V c)

theorem outAt1_first (c : Dev nD) (t : Fin cfg1.N) (h : t.val = 0) :
    outAt1 V c t = out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h) (iblk1 V c 0 t) (iblk1 V c 1 t) (iblk1 V c 2 t) (iblk1 V c 3 t) := dif_pos h

theorem outAt1_later (c : Dev nD) (t : Fin cfg1.N) (h : ¬t.val = 0) :
    outAt1 V c t = out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (scr1 V c) := dif_neg h

def PhiS1 (c : Dev nD) : sProp 𝕄 :=
  iprop(iprop(owns (c : Thread nD τ) scM1 fullShare (scr1 V c) ∗ Pipeline.scopedRestBut (Ix := Unit) (Name := ℕ) (U := UR sig nD τ) (Lvl := ℕ) (Val := Elt F) spec1 c [cc1_scratch0]) ∗ (∃ r, prngReg c r))

def Phi1 (c : Dev nD) (n : ℕ) : sProp 𝕄 := if n = 0 then Pipeline.ΦA spec1 c else PhiS1 V c

theorem Phi1_zero (c : Dev nD) : Phi1 V c 0 = Pipeline.ΦA spec1 c := if_pos rfl
theorem Phi1_pos (c : Dev nD) (n : ℕ) (hn : n ≠ 0) : Phi1 V c n = PhiS1 V c := if_neg hn

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    Phi1_pos V c (t.val + 1) (Nat.succ_ne_zero _),
    after1_0, after1_1, after1_2, after1_3, after1_4]
  unfold PhiS1
  by_cases hz : t.val = 0
  · obtain rfl : t = t0_1 := Fin.ext hz
    rw [outAt1_first V c t0_1 rfl, show Phi1 V c (t0_1 : Fin cfg1.N).val = Pipeline.ΦA spec1 c from Phi1_zero V c, PhiA1_eq]
    unfold out1_A scr1 sout1_A
    iintro ⟨⟨⟨HS, HR⟩, Hg⟩, Ho, ⟨%d0, H0⟩, ⟨%d1, H1⟩, ⟨%d2, H2⟩, ⟨%d3, H3⟩, ⟨%d4, H4⟩⟩
    iapply ((kernelRun1_A c (grid1.coords t0_1) _ _ _ _ _ _ _ _ _ _ _ _ hc1_first (iblk1 V c 0 t0_1) (iblk1 V c 1 t0_1) (iblk1 V c 2 t0_1) (iblk1 V c 3 t0_1)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover1_A c _ _ _ _ _ _ _ _ _ _ _ _ _ _ _ _ _ _)
    iexists _; isplitr
    swap; · iexact H4
    ipureintro; exact View.read_writes_of_cover _ _ _ _ _ (cover1_A c _ _ _ _ _ _ _ _ _ _ _ _ _ _ _ _ _ _)
  · rw [outAt1_later V c t hz, Phi1_pos V c t.val hz]
    unfold out1_B PhiS1
    iintro ⟨⟨⟨HS, HR⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun hc => hz ((hcond1 t).mp hc)) (iblk1 V c 0 t) (iblk1 V c 1 t) (iblk1 V c 2 t) (iblk1 V c 3 t) (scr1 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover1_B c _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 from rfl, Phi1_zero]
  try exact Idealize.SL.BI.Entails.refl _

theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 25 := N_1; omega), PhiA1_eq]
  unfold PhiS1
  iintro ⟨⟨HS, HR⟩, Hg⟩
  iframe HR Hg
  iexists _; iexact HS

end Cert.Kernel.Hand

end
-- ==== Proof.KB.Region2Run.lean ====
import proofs.«136297_g53695681135103_cont_9to1c4b_48_2_alg».proof.Proof.Gen.Kernel.Launch
import proofs.«136297_g53695681135103_cont_9to1c4b_48_2_alg».proof.Proof.Gen.Kernel.Skeleton
import proofs.«136297_g53695681135103_cont_9to1c4b_48_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S400x10000 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S400x128 .f32 := win2_4.stage (cfg2.slots t 4)
abbrev hs2_4 (t : Fin cfg2.N) : (ms2_4 t).IsWhole := hstage2_4 ((cfg2.slots t 4).cast nbuf2_4)
abbrev scM2 : Memref sig .tc .vmem S10000x128 .bf16 := Memref.whole cc2_scratch0
abbrev VO2 : View sig .tc .vmem S400x128 .f32 := (Memref.whole cc2_stg4_0 : Memref sig .tc .vmem S400x128 .f32).view
abbrev VS2 : View sig .tc .vmem S10000x128 .bf16 := scM2.view

abbrev t0_2 : Fin cfg2.N := ⟨0, by decide⟩

theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid2.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun2_A (hc0 : cond2 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc2__layer_body i arg1 harg1 arg2 harg2 arg3 harg3 arg4 harg4 arg5 harg5 arg6 harg6) K } :=
  ⟨_, _, fun E K => by
    simp (disch := assumption) only [cc2__layer_body_eq_skeleton, owns_unread]
    unfold cc2__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun2_B (hc0 : ¬cond2 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc2__layer_body i arg1 harg1 arg2 harg2 arg3 harg3 arg4 harg4 arg5 harg5 arg6 harg6) K } :=
  ⟨_, fun E K => by
    simp (disch := assumption) only [cc2__layer_body_eq_skeleton, owns_unread]
    unfold cc2__layer_body_skel
    iintro ⟨H0, H1, H2, H3, ⟨%d4, H4⟩, HS, Hk⟩
    sl_exec (disch := exact hc0)
    sl_step
    iapply Hk
    iframe
    iexists _; iexact H4⟩

end

end Cert.Kernel.Hand

end
-- ==== Proof.KB.Region2.lean ====
import proofs.«136297_g53695681135103_cont_9to1c4b_48_2_alg».proof.Proof.KB.Region2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid2.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond2 i) (x0 : Vec F S10000x128 .f32) (x1 : Vec F S128x128 .f32) (x2 : Vec F S1x128 .f32) (x3 : Vec F S400x10000 .bf16)

theorem cover2_A (y : S400x128.Idx) :
    ∃ pc ∈ (kernelRun2_A c i arg1 harg1 arg2 harg2 arg3 harg3 arg4 harg4 arg5 harg5 arg6 harg6 hc0 x0 x1 x2 x3).1, y ∈ pc.1.set :=
  View.cover_of_tiledL (kernelRun2_A c i arg1 harg1 arg2 harg2 arg3 harg3 arg4 harg4 arg5 harg5 arg6 harg6 hc0 x0 x1 x2 x3).1 S400x128.size (by sl_kernel_rfl) y

def out2_A : Vec F S400x128 .f32 :=
  VO2.read (Elt F) (VO2.writes (Elt F) VO2.junk (kernelRun2_A c i arg1 harg1 arg2 harg2 arg3 harg3 arg4 harg4 arg5 harg5 arg6 harg6 hc0 x0 x1 x2 x3).1)

theorem scover2_A (y : S10000x128.Idx) :
    ∃ pc ∈ (kernelRun2_A c i arg1 harg1 arg2 harg2 arg3 harg3 arg4 harg4 arg5 harg5 arg6 harg6 hc0 x0 x1 x2 x3).2.1, y ∈ pc.1.set :=
  View.cover_of_tiledL (kernelRun2_A c i arg1 harg1 arg2 harg2 arg3 harg3 arg4 harg4 arg5 harg5 arg6 harg6 hc0 x0 x1 x2 x3).2.1 S10000x128.size (by sl_kernel_rfl) y

def sout2_A : Vec F S10000x128 .bf16 :=
  VS2.read (Elt F) (VS2.writes (Elt F) VS2.junk (kernelRun2_A c i arg1 harg1 arg2 harg2 arg3 harg3 arg4 harg4 arg5 harg5 arg6 harg6 hc0 x0 x1 x2 x3).2.1)

end

section

variable (hc0 : ¬cond2 i) (x0 : Vec F S10000x128 .f32) (x1 : Vec F S128x128 .f32) (x2 : Vec F S1x128 .f32) (x3 : Vec F S400x10000 .bf16) (xs : Vec F S10000x128 .bf16)

theorem cover2_B (y : S400x128.Idx) :
    ∃ pc ∈ (kernelRun2_B c i arg1 harg1 arg2 harg2 arg3 harg3 arg4 harg4 arg5 harg5 arg6 harg6 hc0 x0 x1 x2 x3 xs).1, y ∈ pc.1.set :=
  View.cover_of_tiledL (kernelRun2_B c i arg1 harg1 arg2 harg2 arg3 harg3 arg4 harg4 arg5 harg5 arg6 harg6 hc0 x0 x1 x2 x3 xs).1 S400x128.size (by sl_kernel_rfl) y

def out2_B : Vec F S400x128 .f32 :=
  VO2.read (Elt F) (VO2.writes (Elt F) VO2.junk (kernelRun2_B c i arg1 harg1 arg2 harg2 arg3 harg3 arg4 harg4 arg5 harg5 arg6 harg6 hc0 x0 x1 x2 x3 xs).1)

end

end

theorem hc2_first : cond2 (grid2.coords t0_2) := (hcond2 t0_2).mpr rfl

def scr2 (c : Dev nD) : Vec F S10000x128 .bf16 :=
  sout2_A c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) scM2 (Memref.isWhole_whole _) hc2_first (iblk2 V c 0 t0_2) (iblk2 V c 1 t0_2) (iblk2 V c 2 t0_2) (iblk2 V c 3 t0_2)

def outAt2 (c : Dev nD) (t : Fin cfg2.N) : Vec F S400x128 .f32 :=
  if h : t.val = 0 then
    out2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h) (iblk2 V c 0 t) (iblk2 V c 1 t) (iblk2 V c 2 t) (iblk2 V c 3 t)
  else
    out2_B c (grid2.coords t) (ms2_0 t) (hs2_0 t) (ms2_1 t) (hs2_1 t) (ms2_2 t) (hs2_2 t) (ms2_3 t) (hs2_3 t) (ms2_4 t) (hs2_4 t) scM2 (Memref.isWhole_whole _) (fun hc => h ((hcond2 t).mp hc)) (iblk2 V c 0 t) (iblk2 V c 1 t) (iblk2 V c 2 t) (iblk2 V c 3 t) (scr2 V c)

theorem outAt2_first (c : Dev nD) (t : Fin cfg2.N) (h : t.val = 0) :
    outAt2 V c t = out2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h) (iblk2 V c 0 t) (iblk2 V c 1 t) (iblk2 V c 2 t) (iblk2 V c 3 t) := dif_pos h

theorem outAt2_later (c : Dev nD) (t : Fin cfg2.N) (h : ¬t.val = 0) :
    outAt2 V c t = out2_B c (grid2.coords t) (ms2_0 t) (hs2_0 t) (ms2_1 t) (hs2_1 t) (ms2_2 t) (hs2_2 t) (ms2_3 t) (hs2_3 t) (ms2_4 t) (hs2_4 t) scM2 (Memref.isWhole_whole _) (fun hc => h ((hcond2 t).mp hc)) (iblk2 V c 0 t) (iblk2 V c 1 t) (iblk2 V c 2 t) (iblk2 V c 3 t) (scr2 V c) := dif_neg h

def PhiS2 (c : Dev nD) : sProp 𝕄 :=
  iprop(iprop(owns (c : Thread nD τ) scM2 fullShare (scr2 V c) ∗ Pipeline.scopedRestBut (Ix := Unit) (Name := ℕ) (U := UR sig nD τ) (Lvl := ℕ) (Val := Elt F) spec2 c [cc2_scratch0]) ∗ (∃ r, prngReg c r))

def Phi2 (c : Dev nD) (n : ℕ) : sProp 𝕄 := if n = 0 then Pipeline.ΦA spec2 c else PhiS2 V c

theorem Phi2_zero (c : Dev nD) : Phi2 V c 0 = Pipeline.ΦA spec2 c := if_pos rfl
theorem Phi2_pos (c : Dev nD) (n : ℕ) (hn : n ≠ 0) : Phi2 V c n = PhiS2 V c := if_neg hn

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = Phi2 V c (t.val + 1) from rfl,
    show (dat2 V c).Φ t.castSucc = Phi2 V c t.val from rfl,
    Phi2_pos V c (t.val + 1) (Nat.succ_ne_zero _),
    after2_0, after2_1, after2_2, after2_3, after2_4]
  unfold PhiS2
  by_cases hz : t.val = 0
  · obtain rfl : t = t0_2 := Fin.ext hz
    rw [outAt2_first V c t0_2 rfl, show Phi2 V c (t0_2 : Fin cfg2.N).val = Pipeline.ΦA spec2 c from Phi2_zero V c, PhiA2_eq]
    unfold out2_A scr2 sout2_A
    iintro ⟨⟨⟨HS, HR⟩, Hg⟩, Ho, ⟨%d0, H0⟩, ⟨%d1, H1⟩, ⟨%d2, H2⟩, ⟨%d3, H3⟩, ⟨%d4, H4⟩⟩
    iapply ((kernelRun2_A c (grid2.coords t0_2) _ _ _ _ _ _ _ _ _ _ _ _ hc2_first (iblk2 V c 0 t0_2) (iblk2 V c 1 t0_2) (iblk2 V c 2 t0_2) (iblk2 V c 3 t0_2)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover2_A c _ _ _ _ _ _ _ _ _ _ _ _ _ _ _ _ _ _)
    iexists _; isplitr
    swap; · iexact H4
    ipureintro; exact View.read_writes_of_cover _ _ _ _ _ (cover2_A c _ _ _ _ _ _ _ _ _ _ _ _ _ _ _ _ _ _)
  · rw [outAt2_later V c t hz, Phi2_pos V c t.val hz]
    unfold out2_B PhiS2
    iintro ⟨⟨⟨HS, HR⟩, Hg⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ (fun hc => hz ((hcond2 t).mp hc)) (iblk2 V c 0 t) (iblk2 V c 1 t) (iblk2 V c 2 t) (iblk2 V c 3 t) (scr2 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover2_B c _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Phi2 V c 0 from rfl, Phi2_zero]
  try exact Idealize.SL.BI.Entails.refl _

theorem hout2 (c : Dev nD) : (dat2 V c).Φ (Fin.last cfg2.N) ⊢ Pipeline.ΦA spec2 c := by
  rw [show (dat2 V c).Φ (Fin.last cfg2.N) = Phi2 V c (Fin.last cfg2.N).val from rfl,
    Phi2_pos V c _ (by rw [Fin.val_last]; have : cfg2.N = 25 := N_2; omega), PhiA2_eq]
  unfold PhiS2
  iintro ⟨⟨HS, HR⟩, Hg⟩
  iframe HR Hg
  iexists _; iexact HS

end Cert.Kernel.Hand

end
-- ==== Proof.KB.Region3Run.lean ====
import proofs.«136297_g53695681135103_cont_9to1c4b_48_2_alg».proof.Proof.Gen.Kernel.Launch
import proofs.«136297_g53695681135103_cont_9to1c4b_48_2_alg».proof.Proof.Gen.Kernel.Skeleton
import proofs.«136297_g53695681135103_cont_9to1c4b_48_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3 (i : grid3.Coords) : Prop := (Scalar.cmpi .ne (Scalar.extui (Scalar.cmpi .eq (BitVec.ofNat 32 (i 0).val) 0#32)) 0#32) = 1#1
theorem hcond3 : ∀ t : Fin cfg3.N, cond3 (grid3.coords t) ↔ t.val = 0 :=
  (by decide +kernel : ∀ t : Fin grid3.N, cond3 (grid3.coords t) ↔ t.val = 0)

abbrev ms3_0 (t : Fin cfg3.N) : Memref sig .tc .vmem S10000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S400x10000 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S400x128 .f32 := win3_4.stage (cfg3.slots t 4)
abbrev hs3_4 (t : Fin cfg3.N) : (ms3_4 t).IsWhole := hstage3_4 ((cfg3.slots t 4).cast nbuf3_4)
abbrev scM3 : Memref sig .tc .vmem S10000x128 .bf16 := Memref.whole cc3_scratch0
abbrev VO3 : View sig .tc .vmem S400x128 .f32 := (Memref.whole cc3_stg4_0 : Memref sig .tc .vmem S400x128 .f32).view
abbrev VS3 : View sig .tc .vmem S10000x128 .bf16 := scM3.view

abbrev t0_3 : Fin cfg3.N := ⟨0, by decide⟩

theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid3.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun3_A (hc0 : cond3 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc3__layer_body i arg1 harg1 arg2 harg2 arg3 harg3 arg4 harg4 arg5 harg5 arg6 harg6) K } :=
  ⟨_, _, fun E K => by
    simp (disch := assumption) only [cc3__layer_body_eq_skeleton, owns_unread]
    unfold cc3__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun3_B (hc0 : ¬cond3 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc3__layer_body i arg1 harg1 arg2 harg2 arg3 harg3 arg4 harg4 arg5 harg5 arg6 harg6) K } :=
  ⟨_, fun E K => by
    simp (disch := assumption) only [cc3__layer_body_eq_skeleton, owns_unread]
    unfold cc3__layer_body_skel
    iintro ⟨H0, H1, H2, H3, ⟨%d4, H4⟩, HS, Hk⟩
    sl_exec (disch := exact hc0)
    sl_step
    iapply Hk
    iframe
    iexists _; iexact H4⟩

end

end Cert.Kernel.Hand

end
-- ==== Proof.KB.Region3.lean ====
import proofs.«136297_g53695681135103_cont_9to1c4b_48_2_alg».proof.Proof.KB.Region3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid3.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond3 i) (x0 : Vec F S10000x128 .f32) (x1 : Vec F S128x128 .f32) (x2 : Vec F S1x128 .f32) (x3 : Vec F S400x10000 .bf16)

theorem cover3_A (y : S400x128.Idx) :
    ∃ pc ∈ (kernelRun3_A c i arg1 harg1 arg2 harg2 arg3 harg3 arg4 harg4 arg5 harg5 arg6 harg6 hc0 x0 x1 x2 x3).1, y ∈ pc.1.set :=
  View.cover_of_tiledL (kernelRun3_A c i arg1 harg1 arg2 harg2 arg3 harg3 arg4 harg4 arg5 harg5 arg6 harg6 hc0 x0 x1 x2 x3).1 S400x128.size (by sl_kernel_rfl) y

def out3_A : Vec F S400x128 .f32 :=
  VO3.read (Elt F) (VO3.writes (Elt F) VO3.junk (kernelRun3_A c i arg1 harg1 arg2 harg2 arg3 harg3 arg4 harg4 arg5 harg5 arg6 harg6 hc0 x0 x1 x2 x3).1)

theorem scover3_A (y : S10000x128.Idx) :
    ∃ pc ∈ (kernelRun3_A c i arg1 harg1 arg2 harg2 arg3 harg3 arg4 harg4 arg5 harg5 arg6 harg6 hc0 x0 x1 x2 x3).2.1, y ∈ pc.1.set :=
  View.cover_of_tiledL (kernelRun3_A c i arg1 harg1 arg2 harg2 arg3 harg3 arg4 harg4 arg5 harg5 arg6 harg6 hc0 x0 x1 x2 x3).2.1 S10000x128.size (by sl_kernel_rfl) y

def sout3_A : Vec F S10000x128 .bf16 :=
  VS3.read (Elt F) (VS3.writes (Elt F) VS3.junk (kernelRun3_A c i arg1 harg1 arg2 harg2 arg3 harg3 arg4 harg4 arg5 harg5 arg6 harg6 hc0 x0 x1 x2 x3).2.1)

end

section

variable (hc0 : ¬cond3 i) (x0 : Vec F S10000x128 .f32) (x1 : Vec F S128x128 .f32) (x2 : Vec F S1x128 .f32) (x3 : Vec F S400x10000 .bf16) (xs : Vec F S10000x128 .bf16)

theorem cover3_B (y : S400x128.Idx) :
    ∃ pc ∈ (kernelRun3_B c i arg1 harg1 arg2 harg2 arg3 harg3 arg4 harg4 arg5 harg5 arg6 harg6 hc0 x0 x1 x2 x3 xs).1, y ∈ pc.1.set :=
  View.cover_of_tiledL (kernelRun3_B c i arg1 harg1 arg2 harg2 arg3 harg3 arg4 harg4 arg5 harg5 arg6 harg6 hc0 x0 x1 x2 x3 xs).1 S400x128.size (by sl_kernel_rfl) y

def out3_B : Vec F S400x128 .f32 :=
  VO3.read (Elt F) (VO3.writes (Elt F) VO3.junk (kernelRun3_B c i arg1 harg1 arg2 harg2 arg3 harg3 arg4 harg4 arg5 harg5 arg6 harg6 hc0 x0 x1 x2 x3 xs).1)

end

end

theorem hc3_first : cond3 (grid3.coords t0_3) := (hcond3 t0_3).mpr rfl

def scr3 (c : Dev nD) : Vec F S10000x128 .bf16 :=
  sout3_A c (grid3.coords t0_3) (ms3_0 t0_3) (hs3_0 t0_3) (ms3_1 t0_3) (hs3_1 t0_3) (ms3_2 t0_3) (hs3_2 t0_3) (ms3_3 t0_3) (hs3_3 t0_3) (ms3_4 t0_3) (hs3_4 t0_3) scM3 (Memref.isWhole_whole _) hc3_first (iblk3 V c 0 t0_3) (iblk3 V c 1 t0_3) (iblk3 V c 2 t0_3) (iblk3 V c 3 t0_3)

def outAt3 (c : Dev nD) (t : Fin cfg3.N) : Vec F S400x128 .f32 :=
  if h : t.val = 0 then
    out3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3 t).mpr h) (iblk3 V c 0 t) (iblk3 V c 1 t) (iblk3 V c 2 t) (iblk3 V c 3 t)
  else
    out3_B c (grid3.coords t) (ms3_0 t) (hs3_0 t) (ms3_1 t) (hs3_1 t) (ms3_2 t) (hs3_2 t) (ms3_3 t) (hs3_3 t) (ms3_4 t) (hs3_4 t) scM3 (Memref.isWhole_whole _) (fun hc => h ((hcond3 t).mp hc)) (iblk3 V c 0 t) (iblk3 V c 1 t) (iblk3 V c 2 t) (iblk3 V c 3 t) (scr3 V c)

theorem outAt3_first (c : Dev nD) (t : Fin cfg3.N) (h : t.val = 0) :
    outAt3 V c t = out3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3 t).mpr h) (iblk3 V c 0 t) (iblk3 V c 1 t) (iblk3 V c 2 t) (iblk3 V c 3 t) := dif_pos h

theorem outAt3_later (c : Dev nD) (t : Fin cfg3.N) (h : ¬t.val = 0) :
    outAt3 V c t = out3_B c (grid3.coords t) (ms3_0 t) (hs3_0 t) (ms3_1 t) (hs3_1 t) (ms3_2 t) (hs3_2 t) (ms3_3 t) (hs3_3 t) (ms3_4 t) (hs3_4 t) scM3 (Memref.isWhole_whole _) (fun hc => h ((hcond3 t).mp hc)) (iblk3 V c 0 t) (iblk3 V c 1 t) (iblk3 V c 2 t) (iblk3 V c 3 t) (scr3 V c) := dif_neg h

def PhiS3 (c : Dev nD) : sProp 𝕄 :=
  iprop(iprop(owns (c : Thread nD τ) scM3 fullShare (scr3 V c) ∗ Pipeline.scopedRestBut (Ix := Unit) (Name := ℕ) (U := UR sig nD τ) (Lvl := ℕ) (Val := Elt F) spec3 c [cc3_scratch0]) ∗ (∃ r, prngReg c r))

def Phi3 (c : Dev nD) (n : ℕ) : sProp 𝕄 := if n = 0 then Pipeline.ΦA spec3 c else PhiS3 V c

theorem Phi3_zero (c : Dev nD) : Phi3 V c 0 = Pipeline.ΦA spec3 c := if_pos rfl
theorem Phi3_pos (c : Dev nD) (n : ℕ) (hn : n ≠ 0) : Phi3 V c n = PhiS3 V c := if_neg hn

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = Phi3 V c (t.val + 1) from rfl,
    show (dat3 V c).Φ t.castSucc = Phi3 V c t.val from rfl,
    Phi3_pos V c (t.val + 1) (Nat.succ_ne_zero _),
    after3_0, after3_1, after3_2, after3_3, after3_4]
  unfold PhiS3
  by_cases hz : t.val = 0
  · obtain rfl : t = t0_3 := Fin.ext hz
    rw [outAt3_first V c t0_3 rfl, show Phi3 V c (t0_3 : Fin cfg3.N).val = Pipeline.ΦA spec3 c from Phi3_zero V c, PhiA3_eq]
    unfold out3_A scr3 sout3_A
    iintro ⟨⟨⟨HS, HR⟩, Hg⟩, Ho, ⟨%d0, H0⟩, ⟨%d1, H1⟩, ⟨%d2, H2⟩, ⟨%d3, H3⟩, ⟨%d4, H4⟩⟩
    iapply ((kernelRun3_A c (grid3.coords t0_3) _ _ _ _ _ _ _ _ _ _ _ _ hc3_first (iblk3 V c 0 t0_3) (iblk3 V c 1 t0_3) (iblk3 V c 2 t0_3) (iblk3 V c 3 t0_3)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover3_A c _ _ _ _ _ _ _ _ _ _ _ _ _ _ _ _ _ _)
    iexists _; isplitr
    swap; · iexact H4
    ipureintro; exact View.read_writes_of_cover _ _ _ _ _ (cover3_A c _ _ _ _ _ _ _ _ _ _ _ _ _ _ _ _ _ _)
  · rw [outAt3_later V c t hz, Phi3_pos V c t.val hz]
    unfold out3_B PhiS3
    iintro ⟨⟨⟨HS, HR⟩, Hg⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ (fun hc => hz ((hcond3 t).mp hc)) (iblk3 V c 0 t) (iblk3 V c 1 t) (iblk3 V c 2 t) (iblk3 V c 3 t) (scr3 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover3_B c _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = Phi3 V c 0 from rfl, Phi3_zero]
  try exact Idealize.SL.BI.Entails.refl _

theorem hout3 (c : Dev nD) : (dat3 V c).Φ (Fin.last cfg3.N) ⊢ Pipeline.ΦA spec3 c := by
  rw [show (dat3 V c).Φ (Fin.last cfg3.N) = Phi3 V c (Fin.last cfg3.N).val from rfl,
    Phi3_pos V c _ (by rw [Fin.val_last]; have : cfg3.N = 25 := N_3; omega), PhiA3_eq]
  unfold PhiS3
  iintro ⟨⟨HS, HR⟩, Hg⟩
  iframe HR Hg
  iexists _; iexact HS

end Cert.Kernel.Hand

end
-- ==== Proof.KB.Region4Run.lean ====
import proofs.«136297_g53695681135103_cont_9to1c4b_48_2_alg».proof.Proof.Gen.Kernel.Launch
import proofs.«136297_g53695681135103_cont_9to1c4b_48_2_alg».proof.Proof.Gen.Kernel.Skeleton
import proofs.«136297_g53695681135103_cont_9to1c4b_48_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4 (i : grid4.Coords) : Prop := (Scalar.cmpi .ne (Scalar.extui (Scalar.cmpi .eq (BitVec.ofNat 32 (i 0).val) 0#32)) 0#32) = 1#1
theorem hcond4 : ∀ t : Fin cfg4.N, cond4 (grid4.coords t) ↔ t.val = 0 :=
  (by decide +kernel : ∀ t : Fin grid4.N, cond4 (grid4.coords t) ↔ t.val = 0)

abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S400x10000 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S400x128 .f32 := win4_4.stage (cfg4.slots t 4)
abbrev hs4_4 (t : Fin cfg4.N) : (ms4_4 t).IsWhole := hstage4_4 ((cfg4.slots t 4).cast nbuf4_4)
abbrev scM4 : Memref sig .tc .vmem S10000x128 .bf16 := Memref.whole cc4_scratch0
abbrev VO4 : View sig .tc .vmem S400x128 .f32 := (Memref.whole cc4_stg4_0 : Memref sig .tc .vmem S400x128 .f32).view
abbrev VS4 : View sig .tc .vmem S10000x128 .bf16 := scM4.view

abbrev t0_4 : Fin cfg4.N := ⟨0, by decide⟩

theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid4.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

def kernelRun4_A (hc0 : cond4 i)
    (x0 : Vec F S10000x128 .f32) (x1 : Vec F S128x128 .f32) (x2 : Vec F S1x128 .f32) (x3 : Vec F S400x10000 .bf16) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc4__layer_body i arg1 harg1 arg2 harg2 arg3 harg3 arg4 harg4 arg5 harg5 arg6 harg6) K } :=
  ⟨_, _, fun E K => by
    simp (disch := assumption) only [cc4__layer_body_eq_skeleton, owns_unread]
    unfold cc4__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun4_B (hc0 : ¬cond4 i)
    (x0 : Vec F S10000x128 .f32) (x1 : Vec F S128x128 .f32) (x2 : Vec F S1x128 .f32) (x3 : Vec F S400x10000 .bf16) (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc4__layer_body i arg1 harg1 arg2 harg2 arg3 harg3 arg4 harg4 arg5 harg5 arg6 harg6) K } :=
  ⟨_, fun E K => by
    simp (disch := assumption) only [cc4__layer_body_eq_skeleton, owns_unread]
    unfold cc4__layer_body_skel
    iintro ⟨H0, H1, H2, H3, ⟨%d4, H4⟩, HS, Hk⟩
    sl_exec (disch := exact hc0)
    sl_step
    iapply Hk
    iframe
    iexists _; iexact H4⟩

end

end Cert.Kernel.Hand

end
-- ==== Proof.KB.Region4.lean ====
import proofs.«136297_g53695681135103_cont_9to1c4b_48_2_alg».proof.Proof.KB.Region4Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid4.Coords)
  (arg1 : Memref sig .tc .vmem S10000x128 .f32) (harg1 : arg1.IsWhole) (arg2 : Memref sig .tc .vmem S128x128 .f32) (harg2 : arg2.IsWhole)
  (arg3 : Memref sig .tc .vmem S1x128 .f32) (harg3 : arg3.IsWhole) (arg4 : Memref sig .tc .vmem S400x10000 .bf16) (harg4 : arg4.IsWhole)
  (arg5 : Memref sig .tc .vmem S400x128 .f32) (harg5 : arg5.IsWhole) (arg6 : Memref sig .tc .vmem S10000x128 .bf16) (harg6 : arg6.IsWhole)

section

variable (hc0 : cond4 i) (x0 : Vec F S10000x128 .f32) (x1 : Vec F S128x128 .f32) (x2 : Vec F S1x128 .f32) (x3 : Vec F S400x10000 .bf16)

theorem cover4_A (y : S400x128.Idx) :
    ∃ pc ∈ (kernelRun4_A c i arg1 harg1 arg2 harg2 arg3 harg3 arg4 harg4 arg5 harg5 arg6 harg6 hc0 x0 x1 x2 x3).1, y ∈ pc.1.set :=
  View.cover_of_tiledL (kernelRun4_A c i arg1 harg1 arg2 harg2 arg3 harg3 arg4 harg4 arg5 harg5 arg6 harg6 hc0 x0 x1 x2 x3).1 S400x128.size (by sl_kernel_rfl) y

def out4_A : Vec F S400x128 .f32 :=
  VO4.read (Elt F) (VO4.writes (Elt F) VO4.junk (kernelRun4_A c i arg1 harg1 arg2 harg2 arg3 harg3 arg4 harg4 arg5 harg5 arg6 harg6 hc0 x0 x1 x2 x3).1)

theorem scover4_A (y : S10000x128.Idx) :
    ∃ pc ∈ (kernelRun4_A c i arg1 harg1 arg2 harg2 arg3 harg3 arg4 harg4 arg5 harg5 arg6 harg6 hc0 x0 x1 x2 x3).2.1, y ∈ pc.1.set :=
  View.cover_of_tiledL (kernelRun4_A c i arg1 harg1 arg2 harg2 arg3 harg3 arg4 harg4 arg5 harg5 arg6 harg6 hc0 x0 x1 x2 x3).2.1 S10000x128.size (by sl_kernel_rfl) y

def sout4_A : Vec F S10000x128 .bf16 :=
  VS4.read (Elt F) (VS4.writes (Elt F) VS4.junk (kernelRun4_A c i arg1 harg1 arg2 harg2 arg3 harg3 arg4 harg4 arg5 harg5 arg6 harg6 hc0 x0 x1 x2 x3).2.1)

end

section

variable (hc0 : ¬cond4 i) (x0 : Vec F S10000x128 .f32) (x1 : Vec F S128x128 .f32) (x2 : Vec F S1x128 .f32) (x3 : Vec F S400x10000 .bf16) (xs : Vec F S10000x128 .bf16)

theorem cover4_B (y : S400x128.Idx) :
    ∃ pc ∈ (kernelRun4_B c i arg1 harg1 arg2 harg2 arg3 harg3 arg4 harg4 arg5 harg5 arg6 harg6 hc0 x0 x1 x2 x3 xs).1, y ∈ pc.1.set :=
  View.cover_of_tiledL (kernelRun4_B c i arg1 harg1 arg2 harg2 arg3 harg3 arg4 harg4 arg5 harg5 arg6 harg6 hc0 x0 x1 x2 x3 xs).1 S400x128.size (by sl_kernel_rfl) y

def out4_B : Vec F S400x128 .f32 :=
  VO4.read (Elt F) (VO4.writes (Elt F) VO4.junk (kernelRun4_B c i arg1 harg1 arg2 harg2 arg3 harg3 arg4 harg4 arg5 harg5 arg6 harg6 hc0 x0 x1 x2 x3 xs).1)

end

end

theorem hc4_first : cond4 (grid4.coords t0_4) := (hcond4 t0_4).mpr rfl

def scr4 (c : Dev nD) : Vec F S10000x128 .bf16 :=
  sout4_A c (grid4.coords t0_4) (ms4_0 t0_4) (hs4_0 t0_4) (ms4_1 t0_4) (hs4_1 t0_4) (ms4_2 t0_4) (hs4_2 t0_4) (ms4_3 t0_4) (hs4_3 t0_4) (ms4_4 t0_4) (hs4_4 t0_4) scM4 (Memref.isWhole_whole _) hc4_first (iblk4 V c 0 t0_4) (iblk4 V c 1 t0_4) (iblk4 V c 2 t0_4) (iblk4 V c 3 t0_4)

def outAt4 (c : Dev nD) (t : Fin cfg4.N) : Vec F S400x128 .f32 :=
  if h : t.val = 0 then
    out4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcond4 t).mpr h) (iblk4 V c 0 t) (iblk4 V c 1 t) (iblk4 V c 2 t) (iblk4 V c 3 t)
  else
    out4_B c (grid4.coords t) (ms4_0 t) (hs4_0 t) (ms4_1 t) (hs4_1 t) (ms4_2 t) (hs4_2 t) (ms4_3 t) (hs4_3 t) (ms4_4 t) (hs4_4 t) scM4 (Memref.isWhole_whole _) (fun hc => h ((hcond4 t).mp hc)) (iblk4 V c 0 t) (iblk4 V c 1 t) (iblk4 V c 2 t) (iblk4 V c 3 t) (scr4 V c)

theorem outAt4_first (c : Dev nD) (t : Fin cfg4.N) (h : t.val = 0) :
    outAt4 V c t = out4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcond4 t).mpr h) (iblk4 V c 0 t) (iblk4 V c 1 t) (iblk4 V c 2 t) (iblk4 V c 3 t) := dif_pos h

theorem outAt4_later (c : Dev nD) (t : Fin cfg4.N) (h : ¬t.val = 0) :
    outAt4 V c t = out4_B c (grid4.coords t) (ms4_0 t) (hs4_0 t) (ms4_1 t) (hs4_1 t) (ms4_2 t) (hs4_2 t) (ms4_3 t) (hs4_3 t) (ms4_4 t) (hs4_4 t) scM4 (Memref.isWhole_whole _) (fun hc => h ((hcond4 t).mp hc)) (iblk4 V c 0 t) (iblk4 V c 1 t) (iblk4 V c 2 t) (iblk4 V c 3 t) (scr4 V c) := dif_neg h

def PhiS4 (c : Dev nD) : sProp 𝕄 :=
  iprop(iprop(owns (c : Thread nD τ) scM4 fullShare (scr4 V c) ∗ Pipeline.scopedRestBut (Ix := Unit) (Name := ℕ) (U := UR sig nD τ) (Lvl := ℕ) (Val := Elt F) spec4 c [cc4_scratch0]) ∗ (∃ r, prngReg c r))

def Phi4 (c : Dev nD) (n : ℕ) : sProp 𝕄 := if n = 0 then Pipeline.ΦA spec4 c else PhiS4 V c

theorem Phi4_zero (c : Dev nD) : Phi4 V c 0 = Pipeline.ΦA spec4 c := if_pos rfl
theorem Phi4_pos (c : Dev nD) (n : ℕ) (hn : n ≠ 0) : Phi4 V c n = PhiS4 V c := if_neg hn

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) from rfl,
    show (dat4 V c).Φ t.castSucc = Phi4 V c t.val from rfl,
    Phi4_pos V c (t.val + 1) (Nat.succ_ne_zero _),
    after4_0, after4_1, after4_2, after4_3, after4_4]
  unfold PhiS4
  by_cases hz : t.val = 0
  · obtain rfl : t = t0_4 := Fin.ext hz
    rw [outAt4_first V c t0_4 rfl, show Phi4 V c (t0_4 : Fin cfg4.N).val = Pipeline.ΦA spec4 c from Phi4_zero V c, PhiA4_eq]
    unfold out4_A scr4 sout4_A
    iintro ⟨⟨⟨HS, HR⟩, Hg⟩, Ho, ⟨%d0, H0⟩, ⟨%d1, H1⟩, ⟨%d2, H2⟩, ⟨%d3, H3⟩, ⟨%d4, H4⟩⟩
    iapply ((kernelRun4_A c (grid4.coords t0_4) _ _ _ _ _ _ _ _ _ _ _ _ hc4_first (iblk4 V c 0 t0_4) (iblk4 V c 1 t0_4) (iblk4 V c 2 t0_4) (iblk4 V c 3 t0_4)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover4_A c _ _ _ _ _ _ _ _ _ _ _ _ _ _ _ _ _ _)
    iexists _; isplitr
    swap; · iexact H4
    ipureintro; exact View.read_writes_of_cover _ _ _ _ _ (cover4_A c _ _ _ _ _ _ _ _ _ _ _ _ _ _ _ _ _ _)
  · rw [outAt4_later V c t hz, Phi4_pos V c t.val hz]
    unfold out4_B PhiS4
    iintro ⟨⟨⟨HS, HR⟩, Hg⟩, Ho, ⟨%d0, H0⟩, ⟨%d1, H1⟩, ⟨%d2, H2⟩, ⟨%d3, H3⟩, ⟨%d4, H4⟩⟩
    iapply ((kernelRun4_B c (grid4.coords t) _ _ _ _ _ _ _ _ _ _ _ _ (fun hc => hz ((hcond4 t).mp hc)) (iblk4 V c 0 t) (iblk4 V c 1 t) (iblk4 V c 2 t) (iblk4 V c 3 t) (scr4 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover4_B c _ _ _ _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 from rfl, Phi4_zero]
  try exact Idealize.SL.BI.Entails.refl _

theorem hout4 (c : Dev nD) : (dat4 V c).Φ (Fin.last cfg4.N) ⊢ Pipeline.ΦA spec4 c := by
  rw [show (dat4 V c).Φ (Fin.last cfg4.N) = Phi4 V c (Fin.last cfg4.N).val from rfl,
    Phi4_pos V c _ (by rw [Fin.val_last]; have : cfg4.N = 25 := N_4; omega), PhiA4_eq]
  unfold PhiS4
  iintro ⟨⟨HS, HR⟩, Hg⟩
  iframe HR Hg
  iexists _; iexact HS

end Cert.Kernel.Hand

end
-- ==== Proof.KB.Region5Run.lean ====
import proofs.«136297_g53695681135103_cont_9to1c4b_48_2_alg».proof.Proof.Gen.Kernel.Launch
import proofs.«136297_g53695681135103_cont_9to1c4b_48_2_alg».proof.Proof.Gen.Kernel.Skeleton
import proofs.«136297_g53695681135103_cont_9to1c4b_48_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5 (i : grid5.Coords) : Prop := (Scalar.cmpi .ne (Scalar.extui (Scalar.cmpi .eq (BitVec.ofNat 32 (i 0).val) 0#32)) 0#32) = 1#1
theorem hcond5 : ∀ t : Fin cfg5.N, cond5 (grid5.coords t) ↔ t.val = 0 :=
  (by decide +kernel : ∀ t : Fin grid5.N, cond5 (grid5.coords t) ↔ t.val = 0)

abbrev ms5_0 (t : Fin cfg5.N) : Memref sig .tc .vmem S10000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x40 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x40 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S400x10000 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S400x40 .f32 := win5_4.stage (cfg5.slots t 4)
abbrev hs5_4 (t : Fin cfg5.N) : (ms5_4 t).IsWhole := hstage5_4 ((cfg5.slots t 4).cast nbuf5_4)
abbrev scM5 : Memref sig .tc .vmem S10000x40 .bf16 := Memref.whole cc5_scratch0
abbrev VO5 : View sig .tc .vmem S400x40 .f32 := (Memref.whole cc5_stg4_0 : Memref sig .tc .vmem S400x40 .f32).view
abbrev VS5 : View sig .tc .vmem S10000x40 .bf16 := scM5.view

abbrev t0_5 : Fin cfg5.N := ⟨0, by decide⟩

theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

private theorem owns_unread {s : Shape} {e : EltTy} {a : Memref sig .tc .vmem s e} (ha : a.IsWhole) (c : Dev nD) (x : Vec F s e) :
    (owns (c : Thread nD τ) a fullShare x : sProp 𝕄) = iprop(a.view.loc (c : Thread nD τ) ↦[a.view.set]{fullShare} ha.unread x) := by
  refine BI.equiv_iff.mp ⟨?_, ?_⟩ <;> show (_ : sProp 𝕄) ⊢ _ <;> unfold owns
  · iintro ⟨%f, %hf, H⟩; obtain rfl := ha.eq_unread hf; iexact H
  · iintro H; iexists _; isplitr; · ipureintro; exact ha.read_unread _
    iexact H

section

variable (c : Dev nD) (i : grid5.Coords)
  (arg1 : Memref sig .tc .vmem S10000x128 .f32) (harg1 : arg1.IsWhole) (arg2 : Memref sig .tc .vmem S128x40 .f32) (harg2 : arg2.IsWhole)
  (arg3 : Memref sig .tc .vmem S1x40 .f32) (harg3 : arg3.IsWhole) (arg4 : Memref sig .tc .vmem S400x10000 .bf16) (harg4 : arg4.IsWhole)
  (arg5 : Memref sig .tc .vmem S400x40 .f32) (harg5 : arg5.IsWhole) (arg6 : Memref sig .tc .vmem S10000x40 .bf16) (harg6 : arg6.IsWhole)

def kernelRun5_A (hc0 : cond5 i)
    (x0 : Vec F S10000x128 .f32) (x1 : Vec F S128x40 .f32) (x2 : Vec F S1x40 .f32) (x3 : Vec F S400x10000 .bf16) :
    Σ' (L4 : List (View.Piece (Elt F) S400x40 .f32)), { LS : List (View.Piece (Elt F) S10000x40 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc5__layer_body i arg1 harg1 arg2 harg2 arg3 harg3 arg4 harg4 arg5 harg5 arg6 harg6) K } :=
  ⟨_, _, fun E K => by
    simp (disch := assumption) only [cc5__layer_body_eq_skeleton, owns_unread]
    unfold cc5__layer_body_skel
    iintro ⟨H0, H1, H2, H3, ⟨%d4, H4⟩, ⟨%ds, HS⟩, Hk⟩
    sl_exec (disch := exact hc0)
    sl_step
    iapply Hk
    iframe
    isplitl [H4]; · iexists _; iexact H4
    iexists _; iexact HS⟩

def kernelRun5_B (hc0 : ¬cond5 i)
    (x0 : Vec F S10000x128 .f32) (x1 : Vec F S128x40 .f32) (x2 : Vec F S1x40 .f32) (x3 : Vec F S400x10000 .bf16) (xs : Vec F S10000x40 .bf16) :
    { L4 : List (View.Piece (Elt F) S400x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc5__layer_body i arg1 harg1 arg2 harg2 arg3 harg3 arg4 harg4 arg5 harg5 arg6 harg6) K } :=
  ⟨_, fun E K => by
    simp (disch := assumption) only [cc5__layer_body_eq_skeleton, owns_unread]
    unfold cc5__layer_body_skel
    iintro ⟨H0, H1, H2, H3, ⟨%d4, H4⟩, HS, Hk⟩
    sl_exec (disch := exact hc0)
    sl_step
    iapply Hk
    iframe
    iexists _; iexact H4⟩

end

end Cert.Kernel.Hand

end
-- ==== Proof.KB.Region5.lean ====
import proofs.«136297_g53695681135103_cont_9to1c4b_48_2_alg».proof.Proof.KB.Region5Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid5.Coords)
  (arg1 : Memref sig .tc .vmem S10000x128 .f32) (harg1 : arg1.IsWhole) (arg2 : Memref sig .tc .vmem S128x40 .f32) (harg2 : arg2.IsWhole)
  (arg3 : Memref sig .tc .vmem S1x40 .f32) (harg3 : arg3.IsWhole) (arg4 : Memref sig .tc .vmem S400x10000 .bf16) (harg4 : arg4.IsWhole)
  (arg5 : Memref sig .tc .vmem S400x40 .f32) (harg5 : arg5.IsWhole) (arg6 : Memref sig .tc .vmem S10000x40 .bf16) (harg6 : arg6.IsWhole)

section

variable (hc0 : cond5 i) (x0 : Vec F S10000x128 .f32) (x1 : Vec F S128x40 .f32) (x2 : Vec F S1x40 .f32) (x3 : Vec F S400x10000 .bf16)

theorem cover5_A (y : S400x40.Idx) :
    ∃ pc ∈ (kernelRun5_A c i arg1 harg1 arg2 harg2 arg3 harg3 arg4 harg4 arg5 harg5 arg6 harg6 hc0 x0 x1 x2 x3).1, y ∈ pc.1.set :=
  View.cover_of_tiledL (kernelRun5_A c i arg1 harg1 arg2 harg2 arg3 harg3 arg4 harg4 arg5 harg5 arg6 harg6 hc0 x0 x1 x2 x3).1 S400x40.size (by sl_kernel_rfl) y

def out5_A : Vec F S400x40 .f32 :=
  VO5.read (Elt F) (VO5.writes (Elt F) VO5.junk (kernelRun5_A c i arg1 harg1 arg2 harg2 arg3 harg3 arg4 harg4 arg5 harg5 arg6 harg6 hc0 x0 x1 x2 x3).1)

theorem scover5_A (y : S10000x40.Idx) :
    ∃ pc ∈ (kernelRun5_A c i arg1 harg1 arg2 harg2 arg3 harg3 arg4 harg4 arg5 harg5 arg6 harg6 hc0 x0 x1 x2 x3).2.1, y ∈ pc.1.set :=
  View.cover_of_tiledL (kernelRun5_A c i arg1 harg1 arg2 harg2 arg3 harg3 arg4 harg4 arg5 harg5 arg6 harg6 hc0 x0 x1 x2 x3).2.1 S10000x40.size (by sl_kernel_rfl) y

def sout5_A : Vec F S10000x40 .bf16 :=
  VS5.read (Elt F) (VS5.writes (Elt F) VS5.junk (kernelRun5_A c i arg1 harg1 arg2 harg2 arg3 harg3 arg4 harg4 arg5 harg5 arg6 harg6 hc0 x0 x1 x2 x3).2.1)

end

section

variable (hc0 : ¬cond5 i) (x0 : Vec F S10000x128 .f32) (x1 : Vec F S128x40 .f32) (x2 : Vec F S1x40 .f32) (x3 : Vec F S400x10000 .bf16) (xs : Vec F S10000x40 .bf16)

theorem cover5_B (y : S400x40.Idx) :
    ∃ pc ∈ (kernelRun5_B c i arg1 harg1 arg2 harg2 arg3 harg3 arg4 harg4 arg5 harg5 arg6 harg6 hc0 x0 x1 x2 x3 xs).1, y ∈ pc.1.set :=
  View.cover_of_tiledL (kernelRun5_B c i arg1 harg1 arg2 harg2 arg3 harg3 arg4 harg4 arg5 harg5 arg6 harg6 hc0 x0 x1 x2 x3 xs).1 S400x40.size (by sl_kernel_rfl) y

def out5_B : Vec F S400x40 .f32 :=
  VO5.read (Elt F) (VO5.writes (Elt F) VO5.junk (kernelRun5_B c i arg1 harg1 arg2 harg2 arg3 harg3 arg4 harg4 arg5 harg5 arg6 harg6 hc0 x0 x1 x2 x3 xs).1)

end

end

theorem hc5_first : cond5 (grid5.coords t0_5) := (hcond5 t0_5).mpr rfl

def scr5 (c : Dev nD) : Vec F S10000x40 .bf16 :=
  sout5_A c (grid5.coords t0_5) (ms5_0 t0_5) (hs5_0 t0_5) (ms5_1 t0_5) (hs5_1 t0_5) (ms5_2 t0_5) (hs5_2 t0_5) (ms5_3 t0_5) (hs5_3 t0_5) (ms5_4 t0_5) (hs5_4 t0_5) scM5 (Memref.isWhole_whole _) hc5_first (iblk5 V c 0 t0_5) (iblk5 V c 1 t0_5) (iblk5 V c 2 t0_5) (iblk5 V c 3 t0_5)

def outAt5 (c : Dev nD) (t : Fin cfg5.N) : Vec F S400x40 .f32 :=
  if h : t.val = 0 then
    out5_A c (grid5.coords t) (ms5_0 t) (hs5_0 t) (ms5_1 t) (hs5_1 t) (ms5_2 t) (hs5_2 t) (ms5_3 t) (hs5_3 t) (ms5_4 t) (hs5_4 t) scM5 (Memref.isWhole_whole _) ((hcond5 t).mpr h) (iblk5 V c 0 t) (iblk5 V c 1 t) (iblk5 V c 2 t) (iblk5 V c 3 t)
  else
    out5_B c (grid5.coords t) (ms5_0 t) (hs5_0 t) (ms5_1 t) (hs5_1 t) (ms5_2 t) (hs5_2 t) (ms5_3 t) (hs5_3 t) (ms5_4 t) (hs5_4 t) scM5 (Memref.isWhole_whole _) (fun hc => h ((hcond5 t).mp hc)) (iblk5 V c 0 t) (iblk5 V c 1 t) (iblk5 V c 2 t) (iblk5 V c 3 t) (scr5 V c)

theorem outAt5_first (c : Dev nD) (t : Fin cfg5.N) (h : t.val = 0) :
    outAt5 V c t = out5_A c (grid5.coords t) (ms5_0 t) (hs5_0 t) (ms5_1 t) (hs5_1 t) (ms5_2 t) (hs5_2 t) (ms5_3 t) (hs5_3 t) (ms5_4 t) (hs5_4 t) scM5 (Memref.isWhole_whole _) ((hcond5 t).mpr h) (iblk5 V c 0 t) (iblk5 V c 1 t) (iblk5 V c 2 t) (iblk5 V c 3 t) := dif_pos h

theorem outAt5_later (c : Dev nD) (t : Fin cfg5.N) (h : ¬t.val = 0) :
    outAt5 V c t = out5_B c (grid5.coords t) (ms5_0 t) (hs5_0 t) (ms5_1 t) (hs5_1 t) (ms5_2 t) (hs5_2 t) (ms5_3 t) (hs5_3 t) (ms5_4 t) (hs5_4 t) scM5 (Memref.isWhole_whole _) (fun hc => h ((hcond5 t).mp hc)) (iblk5 V c 0 t) (iblk5 V c 1 t) (iblk5 V c 2 t) (iblk5 V c 3 t) (scr5 V c) := dif_neg h

def PhiS5 (c : Dev nD) : sProp 𝕄 :=
  iprop(iprop(owns (c : Thread nD τ) scM5 fullShare (scr5 V c) ∗ Pipeline.scopedRestBut (Ix := Unit) (Name := ℕ) (U := UR sig nD τ) (Lvl := ℕ) (Val := Elt F) spec5 c [cc5_scratch0]) ∗ (∃ r, prngReg c r))

def Phi5 (c : Dev nD) (n : ℕ) : sProp 𝕄 := if n = 0 then Pipeline.ΦA spec5 c else PhiS5 V c

theorem Phi5_zero (c : Dev nD) : Phi5 V c 0 = Pipeline.ΦA spec5 c := if_pos rfl
theorem Phi5_pos (c : Dev nD) (n : ℕ) (hn : n ≠ 0) : Phi5 V c n = PhiS5 V c := if_neg hn

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outAt5 V c t
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = outAt5 V c t := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl,
    show (dat5 V c).Φ t.succ = Phi5 V c (t.val + 1) from rfl,
    show (dat5 V c).Φ t.castSucc = Phi5 V c t.val from rfl,
    Phi5_pos V c (t.val + 1) (Nat.succ_ne_zero _),
    after5_0, after5_1, after5_2, after5_3, after5_4]
  unfold PhiS5
  by_cases hz : t.val = 0
  · obtain rfl : t = t0_5 := Fin.ext hz
    rw [outAt5_first V c t0_5 rfl, show Phi5 V c (t0_5 : Fin cfg5.N).val = Pipeline.ΦA spec5 c from Phi5_zero V c, PhiA5_eq]
    unfold out5_A scr5 sout5_A
    iintro ⟨⟨⟨HS, HR⟩, Hg⟩, Ho, ⟨%d0, H0⟩, ⟨%d1, H1⟩, ⟨%d2, H2⟩, ⟨%d3, H3⟩, ⟨%d4, H4⟩⟩
    iapply ((kernelRun5_A c (grid5.coords t0_5) _ _ _ _ _ _ _ _ _ _ _ _ hc5_first (iblk5 V c 0 t0_5) (iblk5 V c 1 t0_5) (iblk5 V c 2 t0_5) (iblk5 V c 3 t0_5)).2.2 Set.univ _)
    iframe H0 H1 H2 H3 HS
    isplitl [H4]; · iexists _; iexact H4
    iintro ⟨H0, H1, H2, H3, ⟨%e4, H4⟩, ⟨%es, HS⟩⟩
    iframe HR Hg Ho H0 H1 H2 H3
    unfold owns
    isplitl [HS]
    · iexists _; isplitr
      swap; · iexact HS
      ipureintro; exact View.read_writes_of_cover _ _ _ _ _ (scover5_A c _ _ _ _ _ _ _ _ _ _ _ _ _ _ _ _ _ _)
    iexists _; isplitr
    swap; · iexact H4
    ipureintro; exact View.read_writes_of_cover _ _ _ _ _ (cover5_A c _ _ _ _ _ _ _ _ _ _ _ _ _ _ _ _ _ _)
  · rw [outAt5_later V c t hz, Phi5_pos V c t.val hz]
    unfold out5_B PhiS5
    iintro ⟨⟨⟨HS, HR⟩, Hg⟩, Ho, ⟨%d0, H0⟩, ⟨%d1, H1⟩, ⟨%d2, H2⟩, ⟨%d3, H3⟩, ⟨%d4, H4⟩⟩
    iapply ((kernelRun5_B c (grid5.coords t) _ _ _ _ _ _ _ _ _ _ _ _ (fun hc => hz ((hcond5 t).mp hc)) (iblk5 V c 0 t) (iblk5 V c 1 t) (iblk5 V c 2 t) (iblk5 V c 3 t) (scr5 V c)).2 Set.univ _)
    iframe H0 H1 H2 H3 HS
    isplitl [H4]; · iexists _; iexact H4
    iintro ⟨H0, H1, H2, H3, ⟨%e4, H4⟩, HS⟩
    iframe HS HR Hg Ho H0 H1 H2 H3
    unfold owns; iexists _; isplitr
    swap; · iexact H4
    ipureintro; exact View.read_writes_of_cover _ _ _ _ _ (cover5_B c _ _ _ _ _ _ _ _ _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = Phi5 V c 0 from rfl, Phi5_zero]
  try exact Idealize.SL.BI.Entails.refl _

theorem hout5 (c : Dev nD) : (dat5 V c).Φ (Fin.last cfg5.N) ⊢ Pipeline.ΦA spec5 c := by
  rw [show (dat5 V c).Φ (Fin.last cfg5.N) = Phi5 V c (Fin.last cfg5.N).val from rfl,
    Phi5_pos V c _ (by rw [Fin.val_last]; have : cfg5.N = 25 := N_5; omega), PhiA5_eq]
  unfold PhiS5
  iintro ⟨⟨HS, HR⟩, Hg⟩
  iframe HR Hg
  iexists _; iexact HS

end Cert.Kernel.Hand

end
-- ==== Proof.KB.RunData.lean ====
import proofs.«136297_g53695681135103_cont_9to1c4b_48_2_alg».proof.Proof.KB.Region0
import proofs.«136297_g53695681135103_cont_9to1c4b_48_2_alg».proof.Proof.KB.Region1
import proofs.«136297_g53695681135103_cont_9to1c4b_48_2_alg».proof.Proof.KB.Region2
import proofs.«136297_g53695681135103_cont_9to1c4b_48_2_alg».proof.Proof.KB.Region3
import proofs.«136297_g53695681135103_cont_9to1c4b_48_2_alg».proof.Proof.KB.Region4
import proofs.«136297_g53695681135103_cont_9to1c4b_48_2_alg».proof.Proof.KB.Region5

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem withArrays_keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w)))
    (o : Fin cfg.W) (ho : ∀ w, w ≠ o → (cfg.spec w).isOut = false) (b : Ref sig .tc) (hb : b ≠ Pipeline.arrRef cfg.spec o) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans ((dat.arrAt_in w (ho w fun e => hb (e ▸ rfl)) _).trans (hA w))
  · exact Pipeline.withArrays_of_ne _ c _ _ b fun w e => h ⟨w, e⟩

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of_ne (c : Dev nD) (b : Ref sig .tc) (h0 : b ≠ main_v0) (h1 : b ≠ main_v1) :
    W1 m ρ c (Proc.devRef .tc b) = W0 m ρ c (Proc.devRef .tc b) :=
  (StableHlo.reshape_result_ne _ _ _ _ _ _ _ h1).trans (StableHlo.unary_result_ne _ _ _ _ _ _ h0)
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_keep (c : Dev nD) (b : Ref sig .tc) (hb : b ≠ Pipeline.arrRef spec0 4) :
    W2 m ρ c (Proc.devRef .tc b) = W1 m ρ c (Proc.devRef .tc b) :=
  withArrays_keep (dat0 (V1 m ρ) c) launch0.win.arr_inj _ (A_eq0 (V1 m ρ) c) 4 (by decide) b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of_ne (c : Dev nD) (b : Ref sig .tc) (h0 : b ≠ main_v3) :
    W3 m ρ c (Proc.devRef .tc b) = W2 m ρ c (Proc.devRef .tc b) :=
  StableHlo.reshape_result_ne _ _ _ _ _ _ _ h0
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_keep (c : Dev nD) (b : Ref sig .tc) (hb : b ≠ Pipeline.arrRef spec1 4) :
    W4 m ρ c (Proc.devRef .tc b) = W3 m ρ c (Proc.devRef .tc b) :=
  withArrays_keep (dat1 (V3 m ρ) c) launch1.win.arr_inj _ (A_eq1 (V3 m ρ) c) 4 (by decide) b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of_ne (c : Dev nD) (b : Ref sig .tc) (h0 : b ≠ main_v5) :
    W5 m ρ c (Proc.devRef .tc b) = W4 m ρ c (Proc.devRef .tc b) :=
  StableHlo.reshape_result_ne _ _ _ _ _ _ _ h0
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_keep (c : Dev nD) (b : Ref sig .tc) (hb : b ≠ Pipeline.arrRef spec2 4) :
    W6 m ρ c (Proc.devRef .tc b) = W5 m ρ c (Proc.devRef .tc b) :=
  withArrays_keep (dat2 (V5 m ρ) c) launch2.win.arr_inj _ (A_eq2 (V5 m ρ) c) 4 (by decide) b hb

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of_ne (c : Dev nD) (b : Ref sig .tc) (h0 : b ≠ main_v7) :
    W7 m ρ c (Proc.devRef .tc b) = W6 m ρ c (Proc.devRef .tc b) :=
  StableHlo.reshape_result_ne _ _ _ _ _ _ _ h0
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_keep (c : Dev nD) (b : Ref sig .tc) (hb : b ≠ Pipeline.arrRef spec3 4) :
    W8 m ρ c (Proc.devRef .tc b) = W7 m ρ c (Proc.devRef .tc b) :=
  withArrays_keep (dat3 (V7 m ρ) c) launch3.win.arr_inj _ (A_eq3 (V7 m ρ) c) 4 (by decide) b hb

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
theorem W9_of_ne (c : Dev nD) (b : Ref sig .tc) (h0 : b ≠ main_v9) :
    W9 m ρ c (Proc.devRef .tc b) = W8 m ρ c (Proc.devRef .tc b) :=
  StableHlo.reshape_result_ne _ _ _ _ _ _ _ h0
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_keep (c : Dev nD) (b : Ref sig .tc) (hb : b ≠ Pipeline.arrRef spec4 4) :
    W10 m ρ c (Proc.devRef .tc b) = W9 m ρ c (Proc.devRef .tc b) :=
  withArrays_keep (dat4 (V9 m ρ) c) launch4.win.arr_inj _ (A_eq4 (V9 m ρ) c) 4 (by decide) b hb

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
theorem W11_of_ne (c : Dev nD) (b : Ref sig .tc) (h0 : b ≠ main_v11) :
    W11 m ρ c (Proc.devRef .tc b) = W10 m ρ c (Proc.devRef .tc b) :=
  StableHlo.reshape_result_ne _ _ _ _ _ _ _ h0
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_keep (c : Dev nD) (b : Ref sig .tc) (hb : b ≠ Pipeline.arrRef spec5 4) :
    W12 m ρ c (Proc.devRef .tc b) = W11 m ρ c (Proc.devRef .tc b) :=
  withArrays_keep (dat5 (V11 m ρ) c) launch5.win.arr_inj _ (A_eq5 (V11 m ρ) c) 4 (by decide) b hb

abbrev vs : List (Ref sig .tc) :=
  [main_v0, main_v1, main_v2, main_v3, main_v4, main_v5, main_v6, main_v7, main_v8, main_v9, main_v10, main_v11, main_v12]

section

variable (c : Dev nD) (b : Ref sig .tc) (hb : ∀ v ∈ vs, b ≠ v)
include hb

theorem W1_arg : W1 m ρ c (Proc.devRef .tc b) = m ((c : Thread nD τ).loc b) :=
  W1_of_ne m ρ c b (hb _ (by decide)) (hb _ (by decide))
theorem W2_arg : W2 m ρ c (Proc.devRef .tc b) = m ((c : Thread nD τ).loc b) :=
  (W2_keep m ρ c b (hb _ (by decide))).trans (W1_arg m ρ c b hb)
theorem W3_arg : W3 m ρ c (Proc.devRef .tc b) = m ((c : Thread nD τ).loc b) :=
  (W3_of_ne m ρ c b (hb _ (by decide))).trans (W2_arg m ρ c b hb)
theorem W4_arg : W4 m ρ c (Proc.devRef .tc b) = m ((c : Thread nD τ).loc b) :=
  (W4_keep m ρ c b (hb _ (by decide))).trans (W3_arg m ρ c b hb)
theorem W5_arg : W5 m ρ c (Proc.devRef .tc b) = m ((c : Thread nD τ).loc b) :=
  (W5_of_ne m ρ c b (hb _ (by decide))).trans (W4_arg m ρ c b hb)
theorem W6_arg : W6 m ρ c (Proc.devRef .tc b) = m ((c : Thread nD τ).loc b) :=
  (W6_keep m ρ c b (hb _ (by decide))).trans (W5_arg m ρ c b hb)
theorem W7_arg : W7 m ρ c (Proc.devRef .tc b) = m ((c : Thread nD τ).loc b) :=
  (W7_of_ne m ρ c b (hb _ (by decide))).trans (W6_arg m ρ c b hb)
theorem W8_arg : W8 m ρ c (Proc.devRef .tc b) = m ((c : Thread nD τ).loc b) :=
  (W8_keep m ρ c b (hb _ (by decide))).trans (W7_arg m ρ c b hb)
theorem W9_arg : W9 m ρ c (Proc.devRef .tc b) = m ((c : Thread nD τ).loc b) :=
  (W9_of_ne m ρ c b (hb _ (by decide))).trans (W8_arg m ρ c b hb)
theorem W10_arg : W10 m ρ c (Proc.devRef .tc b) = m ((c : Thread nD τ).loc b) :=
  (W10_keep m ρ c b (hb _ (by decide))).trans (W9_arg m ρ c b hb)
theorem W11_arg : W11 m ρ c (Proc.devRef .tc b) = m ((c : Thread nD τ).loc b) :=
  (W11_of_ne m ρ c b (hb _ (by decide))).trans (W10_arg m ρ c b hb)
theorem W12_arg : W12 m ρ c (Proc.devRef .tc b) = m ((c : Thread nD τ).loc b) :=
  (W12_keep m ρ c b (hb _ (by decide))).trans (W11_arg m ρ c b hb)

end

theorem W12_main_v12 (c : Dev nD) : W12 m ρ c (Proc.devRef .tc main_v12) = (dat5 (V11 m ρ) c).arrAt 4 cfg5.N :=
  W12_arr m ρ c 4

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c

end Cert.Kernel.Hand

end
-- ==== Proof.KB.Run.lean ====
import proofs.«136297_g53695681135103_cont_9to1c4b_48_2_alg».proof.Proof.KB.RunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-- A kernel region between two host stretches: its arrays are split out of the buffers held at `W` and rejoin them at
    their final contents. -/
def reg (p : Fin 6) (lf : Pipeline.LaunchFacts (nD := nD) (τ := τ) cfgs p) (W : Dev nD → Valuation τ sig (Elt F))
    (hb : ∀ c, BodyObligation (pdats m ρ p c) defs₀ 𝒱₀ () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c)
    (hA : ∀ c w, (pdats m ρ p c).A w = W c (Pipeline.arrRef (cfgs p).spec w) := by intros; rfl)
    (hq : ∀ c w, (pdats m ρ p c).q w = fullShare := by intros; rfl)
    (howed : ∀ c t, (pdats m ρ p c).owed t = 0 := by intros; rfl)
    (hrec : ∀ c x, x ∈ (pdats m ρ p c).recorded 0 := by intros; trivial) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig)
    (Pipeline.withArrays (cfgs p).spec c (W c) ((pdats m ρ p c).arrAt · (cfgs p).N)) ∗ R c)
  X c := iprop(∃ r, prngReg c r)
  Y c := iprop(∃ r, prngReg c r)
  Z c := Pipeline.unscopedRest (cfgs p).spec c (W c ·)
  hentry c := by
    have hsplit := Pipeline.arrays_of_unscopedBufs _ _ (pdats m ρ) (p := p) lf.win lf.arr_whole c
      ((pdats m ρ p c).share_full (hq c)) (W c ·) (hA c)
    rw [Pipeline.unscopedBufs_held] at hsplit
    unfold Pipeline.prefHeld Pipeline.Dat.owesAt Pipeline.owesWithin
    rw [howed, show (Finset.univ : Finset (Fin 0)) = ∅ from rfl, BI.bigSep_empty]
    iintro ⟨⟨Hub, Hp, %O, HO⟩, -⟩
    ihave H := hsplit $$ Hub
    icases H with ⟨Ha, Hrest⟩
    imodintro
    isplitl [Ha]; · iexact Ha
    isplitr; · iempintro
    isplitl [HO]
    · iexists O; isplitr; · ipureintro; exact fun x _ => Or.inl (hrec c x)
      iexact HO
    isplitl [Hp] <;> iassumption
  hin c := .trans (by unfold Pipeline.ΦA; iintro ⟨Hp, -, Hr⟩; isplitl [Hr] <;> iassumption) (hin c)
  hout c := (hout c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays _ _ (p := p) lf.win lf.arr_whole c (pdats m ρ)
      ((pdats m ρ p c).share_full (hq c)) (W c ·)
      (Pipeline.withArrays (cfgs p).spec c (W c) ((pdats m ρ p c).arrAt · (cfgs p).N) ·) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin; rw [howed]
    iintro ⟨Ha, ⟨%O, -, HO⟩, HY, Hrest⟩
    imodintro
    isplitl [Ha Hrest]
    · iapply hjoin; isplitl [Ha] <;> iassumption
    isplitl [HY]; · iexact HY
    iexists O; iexact HO

def reg0 := reg m ρ 0 launch0 (W1 m ρ) (body_obligation0 (V1 m ρ)) (hin0 (V1 m ρ)) (hout0 (V1 m ρ))
def reg1 := reg m ρ 1 launch1 (W3 m ρ) (body_obligation1 (V3 m ρ)) (hin1 (V3 m ρ)) (hout1 (V3 m ρ))
def reg2 := reg m ρ 2 launch2 (W5 m ρ) (body_obligation2 (V5 m ρ)) (hin2 (V5 m ρ)) (hout2 (V5 m ρ))
def reg3 := reg m ρ 3 launch3 (W7 m ρ) (body_obligation3 (V7 m ρ)) (hin3 (V7 m ρ)) (hout3 (V7 m ρ))
def reg4 := reg m ρ 4 launch4 (W9 m ρ) (body_obligation4 (V9 m ρ)) (hin4 (V9 m ρ)) (hout4 (V9 m ρ))
def reg5 := reg m ρ 5 launch5 (W11 m ρ) (body_obligation5 (V11 m ρ)) (hin5 (V11 m ρ)) (hout5 (V11 m ρ))

abbrev segs : List (Pipeline.Seg (pcfgs (F := F)) adm (pdats m ρ) () defs₀ 𝒱₀ L lv) :=
  [ .host (hseg hostOps0 hostOps0_sub (W0 m ρ)),
    .region (reg0 m ρ),
    .host (hseg hostOps1 hostOps1_sub (W2 m ρ)),
    .region (reg1 m ρ),
    .host (hseg hostOps2 hostOps2_sub (W4 m ρ)),
    .region (reg2 m ρ),
    .host (hseg hostOps3 hostOps3_sub (W6 m ρ)),
    .region (reg3 m ρ),
    .host (hseg hostOps4 hostOps4_sub (W8 m ρ)),
    .region (reg4 m ρ),
    .host (hseg hostOps5 hostOps5_sub (W10 m ρ)),
    .region (reg5 m ρ) ]
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have k (b : Ref sig .tc) hu hb : r.2.mem ((c.tc : Thread nD τ).loc b) = m ((c.tc : Thread nD τ).loc b) :=
      (h c _ (mem_uc b hu)).trans (W12_arg m ρ c b hb)
    ⟨k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide),
      k main_arg9 (by decide) (by decide), k main_arg10 (by decide) (by decide), k main_arg11 (by decide) (by decide),
      k main_arg12 (by decide) (by decide), k main_arg13 (by decide) (by decide)⟩) (run m ρ)

end Cert.Kernel.Hand

end
-- ==== Proof.lean ====
import proofs.«136297_g53695681135103_cont_9to1c4b_48_2_alg».proof.Defs
import proofs.«136297_g53695681135103_cont_9to1c4b_48_2_alg».proof.Proof.Gen.Kernel
import proofs.«136297_g53695681135103_cont_9to1c4b_48_2_alg».proof.Proof.Gen.KernelIdeal
import proofs.«136297_g53695681135103_cont_9to1c4b_48_2_alg».proof.Proof.Gen.ReferenceIdeal
import proofs.«136297_g53695681135103_cont_9to1c4b_48_2_alg».proof.Proof.Gen.Pre_finite_inputs
import proofs.«136297_g53695681135103_cont_9to1c4b_48_2_alg».proof.Proof.RefRun
import proofs.«136297_g53695681135103_cont_9to1c4b_48_2_alg».proof.Proof.RefValue
import proofs.«136297_g53695681135103_cont_9to1c4b_48_2_alg».proof.Proof.Algebra
import proofs.«136297_g53695681135103_cont_9to1c4b_48_2_alg».proof.Proof.Finite
import proofs.«136297_g53695681135103_cont_9to1c4b_48_2_alg».proof.Proof.KI.Run
import proofs.«136297_g53695681135103_cont_9to1c4b_48_2_alg».proof.Proof.KI.Value
import proofs.«136297_g53695681135103_cont_9to1c4b_48_2_alg».proof.Proof.KB.Run
import Idealize.ShloMosaic.Adequacy
import Idealize.ShloMosaic.Init

noncomputable section

namespace Cert.Proof

open Idealize.ShloMosaic Idealize.SL.Sem Idealize.ShloMosaic.ValueIdx

theorem frame_k :
    Cert.frame_Kernel (hKernel := Cert.Kernel.Gen.facts) (hPre_finite_inputs := Cert.Pre_finite_inputs.Gen.facts) :=
  fun m ρ _ => Cert.Kernel.Hand.frame (F := Bits) m ρ

theorem frame_ki :
    Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

theorem preserves : Cert.preserves_Kernel_KernelIdeal := trivial

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13⟩ := hagree c
  obtain ⟨f0, f1, f2, f3, f4, f5, f6, f7, f8, f9, f10, f11, f12, f13⟩ := Cert.Proof.Finite.isFin_of_pre m hpre c
  refine (Cert.ReferenceIdeal.RefValue.result_eq m' c).trans ?_
  rw [a0, a1, a2, a3, a4, a5, a6, a7, a8, a9, a10, a11, a12, a13]
  exact (Cert.Spec.netK_eq_netR _ _ _ _ _ _ _ _ _ _ _ _ _ _
    f0 f1 f2 (fun n => f3 (ix1 n)) f4 (fun n => f5 (ix1 n)) f6 (fun n => f7 (ix1 n)) f8 (fun n => f9 (ix1 n)) f10 (fun n => f11 (ix1 n)) f12 (fun n => f13 (ix1 n))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
